-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256 .f32) (main_arg8 : FVec F S256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S1024x256 .f32) (main_arg5 : FVec F S1024 .f32) (main_arg6 : FVec F S256x1024 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x256 .f32) (main_arg1 : FVec F S8x4096x256 .f32) (main_arg2 : FVec F S256x256 .f32) (main_arg3 : FVec F S256 .f32) (main_arg4 : FVec F S1024x256 .f32) (main_arg5 : FVec F S1024 .f32) (main_arg6 : FVec F S256x1024 .f32) (main_arg7 : FVec F S256 .f32) (main_arg8 : FVec F S256 .f32) (main_arg9 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S1x512x256 : Shape := ⟨3, ![1, 512, 256]⟩
abbrev S512x256 : Shape := ⟨2, ![512, 256]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x256 : Shape := ⟨2, ![1, 256]⟩
abbrev S1x1024x256 : Shape := ⟨3, ![1, 1024, 256]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 13
  | .vmem => 30
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x256, .f32⟩
  | .hbm, ⟨3, _⟩ => ⟨S256, .f32⟩
  | .hbm, ⟨4, _⟩ => ⟨S1024x256, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S8x4096x256, .f32⟩
  | .hbm, ⟨11, _⟩ => ⟨S8x4096x256, .f32⟩
  | .hbm, ⟨12, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S256x256, .f32⟩
  | .local _ .vmem, ⟨5, _⟩ => ⟨S256, .f32⟩
  | .local _ .vmem, ⟨6, _⟩ => ⟨S1x512x256, .f32⟩
  | .local _ .vmem, ⟨7, _⟩ => ⟨S1x512x256, .f32⟩
  | .local _ .vmem, ⟨8, _⟩ => ⟨S512x256, .f32⟩
  | .local _ .vmem, ⟨9, _⟩ => ⟨S1x512, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S512x256, .f32⟩
  | .local _ .vmem, ⟨19, _⟩ => ⟨S512x1, .f32⟩
  | .local _ .vmem, ⟨20, _⟩ => ⟨S1x1024x256, .f32⟩
  | .local _ .vmem, ⟨21, _⟩ => ⟨S1x1024x256, .f32⟩
  | .local _ .vmem, ⟨22, _⟩ => ⟨S1024x256, .f32⟩
  | .local _ .vmem, ⟨23, _⟩ => ⟨S1024, .f32⟩
  | .local _ .vmem, ⟨24, _⟩ => ⟨S256x1024, .f32⟩
  | .local _ .vmem, ⟨25, _⟩ => ⟨S256, .f32⟩
  | .local _ .vmem, ⟨26, _⟩ => ⟨S256, .f32⟩
  | .local _ .vmem, ⟨27, _⟩ => ⟨S256, .f32⟩
  | .local _ .vmem, ⟨28, _⟩ => ⟨S1x1024x256, .f32⟩
  | .local _ .vmem, ⟨29, _⟩ => ⟨S1x1024x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v49 : BitVec 1 := Scalar.cmpi .eq arg2 c7_i32
  let v50 : BitVec 32 := Scalar.extui v49
  let c0_i32_24 : BitVec 32 := 0#32
  let v51 : BitVec 1 := Scalar.cmpi .ne v50 c0_i32_24
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_23 : BitVec 32 := 0#32
  let v45 : BitVec 1 := Scalar.cmpi .ne v44 c0_i32_23
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x1024x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  natLt_1_32 : 1 < 32
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  reduces_S512x512_S512 : S512x512.Reduces [0] S512
  shapeCasts_S512_S1x512 : S512.ShapeCasts S1x512
  transposes_S1x512_p1_0_S512x1 : S1x512.Transposes [1, 0] S512x1
  broadcasts_S512x1_S512x256 : S512x1.Broadcasts S512x256
  shapeCasts_S512x256_S1x512x256 : S512x256.ShapeCasts S1x512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512_2 : S512x512.Reduces [1] S512
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S256x1024_S256x1024_0_0 : ∀ a, (![0, 0] : Fin 2 → Nat) a + S256x1024.size a ≤ S256x1024.size a
  h_S256x1024 : 0 < S256x1024.numel
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  shapeCasts_S1024x256_S1x1024x256 : S1024x256.ShapeCasts S1x1024x256
  dot_S512x256_S512x256_S512x512_1_1_0_0_n_n_wf : DotDims.WF S512x256 S512x256 S512x512 [1] [1] [0] [0] [] []
  dot_S512x256_S256x256_S512x256_1_1_0_0_n_n_wf : DotDims.WF S512x256 S256x256 S512x256 [1] [1] [0] [0] [] []
  dot_S512x512_S512x256_S512x256_0_0_1_1_n_n_wf : DotDims.WF S512x512 S512x256 S512x256 [0] [0] [1] [1] [] []
  dot_S512x512_S512x256_S512x256_1_0_0_1_n_n_wf : DotDims.WF S512x512 S512x256 S512x256 [1] [0] [0] [1] [] []
  dot_S1024x256_S1024x256_S1024x1024_1_1_0_0_n_n_wf : DotDims.WF S1024x256 S1024x256 S1024x1024 [1] [1] [0] [0] [] []
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .f32 = 32 ∨ (Rect.block (s := S8x4096x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x4096x256.size a
  hwx0_1 : ∀ i : grid0.Coords, EltTy.bits .f32 = 32 ∨ (Rect.block (s := S8x4096x256) S1x512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x4096x256.size a
  hwx0_4 : ∀ i : grid0.Coords, EltTy.bits .f32 = 32 ∨ (Rect.block (s := S8x4096x256) S1x512x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S8x4096x256.size a
  hwx1_0 : ∀ i : grid1.Coords, EltTy.bits .f32 = 32 ∨ (Rect.block (s := S8x4096x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x4096x256.size a
  hwx1_1 : ∀ i : grid1.Coords, EltTy.bits .f32 = 32 ∨ (Rect.block (s := S8x4096x256) S1x512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x256.size a ≤ S8x4096x256.size a
  hwx1_2 : ∀ i : grid1.Coords, EltTy.bits .f32 = 32 ∨ (Rect.block (s := S8x4096x256) S1x512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S8x4096x256.size a
  hwx1_3 : ∀ i : grid1.Coords, EltTy.bits .f32 = 32 ∨ (Rect.block (s := S8x4096x256) S1x512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x256.size a ≤ S8x4096x256.size a
  hwx2_0 : ∀ i : grid2.Coords, EltTy.bits .f32 = 32 ∨ (Rect.block (s := S8x4096x256) S1x1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S256x1024.size a
  hwx2_3 : ∀ i : grid2.Coords, EltTy.bits .f32 = 32 ∨ (Rect.block (s := S256x1024) S256x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024x256.size a ≤ S8x4096x256.size a
  hwx2_7 : ∀ i : grid2.Coords, EltTy.bits .f32 = 32 ∨ (Rect.block (s := S8x4096x256) S1x1024x256.size (cc2_transform_7 i) (hinb2_7 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x512_S512x256_S512x256_0_0_1_1_n_n : DotDims S512x512 S512x256 S512x256 where
  lhsContracting := [0]
  rhsContracting := [0]
  lhsNonContracting := [1]
  rhsNonContracting := [1]
  lhsBatch := []
  rhsBatch := []
  wf := dot_S512x512_S512x256_S512x256_0_0_1_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S1x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1x1024x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S1x1x256 : Shape := ⟨3, ![1, 1, 256]⟩
abbrev S8x4096x1024 : Shape := ⟨3, ![8, 4096, 1024]⟩
abbrev S1x1x1024 : Shape := ⟨3, ![1, 1, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S256x256, .f32⟩
  | .hbm, ⟨3, _⟩ => ⟨S256, .f32⟩
  | .hbm, ⟨4, _⟩ => ⟨S1024x256, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S8x4096x256, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x256, .f32⟩
  | .hbm, ⟨15, _⟩ => ⟨S_, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .i1⟩
  | .hbm, ⟨33, _⟩ => ⟨S8x4096x4096, .f32⟩
  | .hbm, ⟨34, _⟩ => ⟨S8x4096x256, .f32⟩
  | .hbm, ⟨35, _⟩ => ⟨S1x1x256, .f32⟩
  | .hbm, ⟨36, _⟩ => ⟨S8x4096x256, .f32⟩
  | .hbm, ⟨37, _⟩ => ⟨S8x4096x256, .f32⟩
  | .hbm, ⟨38, _⟩ => ⟨S8x4096x4096, .f32⟩
  | .hbm, ⟨39, _⟩ => ⟨S8x4096x256, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .i1⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x256, .f32⟩
  | .hbm, ⟨54, _⟩ => ⟨S8x4096x256, .f32⟩
  | .hbm, ⟨55, _⟩ => ⟨S8x4096x256, .f32⟩
  | .hbm, ⟨56, _⟩ => ⟨S8x4096x256, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .i1⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x256, .f32⟩
  | .hbm, ⟨71, _⟩ => ⟨S8x4096x256, .f32⟩
  | .hbm, ⟨72, _⟩ => ⟨S8x4096x256, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S_, .f32⟩
  | .hbm, ⟨78, _⟩ => ⟨S8x4096x1024, .f32⟩
  | .hbm, ⟨79, _⟩ => ⟨S8x4096x1024, .f32⟩
  | .hbm, ⟨80, _⟩ => ⟨S8x4096x256, .f32⟩
  | .hbm, ⟨81, _⟩ => ⟨S1x1x256, .f32⟩
  | .hbm, ⟨82, _⟩ => ⟨S8x4096x256, .f32⟩
  | .hbm, ⟨83, _⟩ => ⟨S8x4096x256, .f32⟩
  | .hbm, ⟨84, _⟩ => ⟨S8x4096x256, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S8x4096x256, .f32⟩
  | .hbm, ⟨92, _⟩ => ⟨S8x4096x256, .f32⟩
  | .hbm, ⟨93, _⟩ => ⟨S8x4096x256, .f32⟩
  | .hbm, ⟨94, _⟩ => ⟨S_, .f32⟩
  | .hbm, ⟨95, _⟩ => ⟨S8x4096, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x256, .f32⟩
  | .hbm, ⟨101, _⟩ => ⟨S8x4096x256, .f32⟩
  | .hbm, ⟨102, _⟩ => ⟨S_, .f32⟩
  | .hbm, ⟨103, _⟩ => ⟨S8x4096x1, .f32⟩
  | .hbm, ⟨104, _⟩ => ⟨S8x4096x1, .f32⟩
  | .hbm, ⟨105, _⟩ => ⟨S8x4096x1, .f32⟩
  | .hbm, ⟨106, _⟩ => ⟨S8x4096x256, .f32⟩
  | .hbm, ⟨107, _⟩ => ⟨S8x4096x256, .f32⟩
  | .hbm, ⟨108, _⟩ => ⟨S1x1x256, .f32⟩
  | .hbm, ⟨109, _⟩ => ⟨S8x4096x256, .f32⟩
  | .hbm, ⟨110, _⟩ => ⟨S8x4096x256, .f32⟩
  | .hbm, ⟨111, _⟩ => ⟨S1x1x256, .f32⟩
  | .hbm, ⟨112, _⟩ => ⟨S8x4096x256, .f32⟩
  | .hbm, ⟨113, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  transposes_S8x4096x4096_S8x4096x4096_0_2_1 : S8x4096x4096.Transposes [0, 2, 1] S8x4096x4096
  reducesTo_S8x4096x4096_S8x4096_d2 : S8x4096x4096.ReducesTo [2] S8x4096
  bcast_S_S8x4096x1 : S_.BroadcastsInDim S8x4096x1 (![] : Fin 0 → Fin S8x4096x1.rank)
  bcast_S8x4096x1_S8x4096x256_0_1_2 : S8x4096x1.BroadcastsInDim S8x4096x256 (![0, 1, 2] : Fin 3 → Fin S8x4096x256.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x256_S8x4096x256_S8x4096x4096_2_2_1_1_0_0_wf : DotDims.WF S8x4096x256 S8x4096x256 S8x4096x4096 [2] [2] [1] [1] [0] [0]
  dot_S8x4096x256_S256x256_S8x4096x256_2_1_01_0_n_n_wf : DotDims.WF S8x4096x256 S256x256 S8x4096x256 [2] [1] [0, 1] [0] [] []
  dot_S8x4096x4096_S8x4096x256_S8x4096x256_2_1_1_2_0_0_wf : DotDims.WF S8x4096x4096 S8x4096x256 S8x4096x256 [2] [1] [1] [2] [0] [0]
  dot_S8x4096x256_S1024x256_S8x4096x1024_2_1_01_0_n_n_wf : DotDims.WF S8x4096x256 S1024x256 S8x4096x1024 [2] [1] [0, 1] [0] [] []
  dot_S8x4096x1024_S256x1024_S8x4096x256_2_1_01_0_n_n_wf : DotDims.WF S8x4096x1024 S256x1024 S8x4096x256 [2] [1] [0, 1] [0] [] []

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf

class Facts : Prop extends Facts₀ where

variable [Facts]
-- ==== Proof.K.Shared.lean ====
import proofs.«176735_j32615981646424_1_alg».proof.Proof.Gen.Kernel.Launch
import proofs.«176735_j32615981646424_1_alg».proof.Proof.Gen.Kernel.Skeleton
import proofs.«176735_j32615981646424_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond0_0 (i : grid0.Coords) : Prop := (Scalar.cmpi .ne (Scalar.extui (Scalar.cmpi .eq (BitVec.ofNat 32 (i 2).val) 0#32)) 0#32) = 1#1
/-- The reduction coordinate is the grid's last: a position's step is the position modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem liveAt2_7 : ∀ t : Fin cfg2.N, cfg2.idle 7 (grid2.coords t) = false := by decide +kernel

theorem liveAt0_in : ∀ (w : Fin 5), w ≠ 4 → ∀ t : Fin cfg0.N, cfg0.idle w (grid0.coords t) = false := by decide +kernel
theorem liveAt1_in : ∀ (w : Fin 4), w ≠ 3 → ∀ t : Fin cfg1.N, cfg1.idle w (grid1.coords t) = false := by decide +kernel
theorem liveAt2_in : ∀ (w : Fin 8), w ≠ 7 → ∀ t : Fin cfg2.N, cfg2.idle w (grid2.coords t) = false := by decide +kernel

abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms1_0 (t : Fin cfg1.N) : Memref sig .tc .vmem S1x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x256 .f32 := win1_3.stage (cfg1.slots t 3)
abbrev hs1_3 (t : Fin cfg1.N) : (ms1_3 t).IsWhole := hstage1_3 ((cfg1.slots t 3).cast nbuf1_3)
abbrev ms2_0 (t : Fin cfg2.N) : Memref sig .tc .vmem S1x1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1024x256 .f32 := win2_7.stage (cfg2.slots t 7)
abbrev hs2_7 (t : Fin cfg2.N) : (ms2_7 t).IsWhole := hstage2_7 ((cfg2.slots t 7).cast nbuf2_7)

abbrev scM0_0 : Memref sig .tc .vmem S512x256 .f32 := Memref.whole cc0_scratch0
abbrev scM0_1 : Memref sig .tc .vmem S1x512 .f32 := Memref.whole cc0_scratch1

abbrev scM1_0 : Memref sig .tc .vmem S512x256 .f32 := Memref.whole cc1_scratch0
abbrev scM1_1 : Memref sig .tc .vmem S512x1 .f32 := Memref.whole cc1_scratch1

abbrev VS0_0 : View sig .tc .vmem S512x256 .f32 := scM0_0.view
abbrev VS0_1 : View sig .tc .vmem S1x512 .f32 := scM0_1.view
abbrev VS1_0 : View sig .tc .vmem S512x256 .f32 := scM1_0.view
abbrev VS1_1 : View sig .tc .vmem S512x1 .f32 := scM1_1.view
abbrev VO0_4 : View sig .tc .vmem S1x512x256 .f32 := (Memref.whole cc0_stg4_0 : Memref sig .tc .vmem S1x512x256 .f32).view
abbrev VO1_3 : View sig .tc .vmem S1x512x256 .f32 := (Memref.whole cc1_stg3_0 : Memref sig .tc .vmem S1x512x256 .f32).view
abbrev VO2_7 : View sig .tc .vmem S1x1024x256 .f32 := (Memref.whole cc2_stg7_0 : Memref sig .tc .vmem S1x1024x256 .f32).view

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

abbrev rest0 (c : Dev nD) : sProp 𝕄 := Pipeline.scopedRestBut (Ix := Unit) (Name := ℕ) (U := UR sig nD τ) (Lvl := ℕ) (Val := Elt F) spec0 c [cc0_scratch0, cc0_scratch1]
abbrev rest1 (c : Dev nD) : sProp 𝕄 := Pipeline.scopedRestBut (Ix := Unit) (Name := ℕ) (U := UR sig nD τ) (Lvl := ℕ) (Val := Elt F) spec1 c [cc1_scratch0, cc1_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.Kernel.Hand

end
-- ==== Proof.K.R0A.lean ====
import proofs.«176735_j32615981646424_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : cond0_0 i) (hc1 : ¬cond0_1 i)
    (x0 : Vec F S1x512x256 .f32) (x1 : Vec F S1x512x256 .f32) (x2 : Vec F S256x256 .f32) (x3 : Vec F S256 .f32) :
    Σ' (L4 : List (View.Piece (Elt F) S1x512x256 .f32)) (LS0 : List (View.Piece (Elt F) S512x256 .f32)), { LS1 : List (View.Piece (Elt F) S1x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨[], ?_, ?_, fun xi4 E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HS0]
    · iexists _; iexact HS0
    iexists _; iexact HS1

end Cert.Kernel.Hand

end
-- ==== Proof.K.R0B.lean ====
import proofs.«176735_j32615981646424_1_alg».proof.Proof.K.R0A

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : ¬cond0_0 i) (hc1 : ¬cond0_1 i)
    (x0 : Vec F S1x512x256 .f32) (x1 : Vec F S1x512x256 .f32) (x2 : Vec F S256x256 .f32) (x3 : Vec F S256 .f32) (xs0 : Vec F S512x256 .f32) (xs1 : Vec F S1x512 .f32) :
    Σ' (L4 : List (View.Piece (Elt F) S1x512x256 .f32)) (LS0 : List (View.Piece (Elt F) S512x256 .f32)), { LS1 : List (View.Piece (Elt F) S1x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨[], ?_, ?_, fun xi4 E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HS0]
    · iexists _; iexact HS0
    iexists _; iexact HS1

end Cert.Kernel.Hand

end
-- ==== Proof.K.R0C.lean ====
import proofs.«176735_j32615981646424_1_alg».proof.Proof.K.R0B

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : ¬cond0_0 i) (hc1 : cond0_1 i)
    (x0 : Vec F S1x512x256 .f32) (x1 : Vec F S1x512x256 .f32) (x2 : Vec F S256x256 .f32) (x3 : Vec F S256 .f32) (xs0 : Vec F S512x256 .f32) (xs1 : Vec F S1x512 .f32) :
    Σ' (L4 : List (View.Piece (Elt F) S1x512x256 .f32)) (LS0 : List (View.Piece (Elt F) S512x256 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%dO, %fo, -, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HS0]
    · iexists _; iexact HS0
    iexists _; iexact HS1

end Cert.Kernel.Hand

end
-- ==== Proof.K.R0Data.lean ====
import proofs.«176735_j32615981646424_1_alg».proof.Proof.K.R0C

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle0_4 : Vec F S1x512x256 .f32 := VO0_4.read (Elt F) VO0_4.junk

section
variable (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole)
section
variable (hc0 : cond0_0 i) (hc1 : ¬cond0_1 i) (x0 : Vec F S1x512x256 .f32) (x1 : Vec F S1x512x256 .f32) (x2 : Vec F S256x256 .f32) (x3 : Vec F S256 .f32)
theorem scover0_A_0 (y : S512x256.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL _ S512x256.size (by sl_kernel_rfl) y

def sout0_A_0 : Vec F S512x256 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).2.1)

theorem scover0_A_1 (y : S1x512.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL _ S1x512.size (by sl_kernel_rfl) y

def sout0_A_1 : Vec F S1x512 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.2.1)
def outs0_A : Vec F S1x512x256 .f32 × Vec F S512x256 .f32 × Vec F S1x512 .f32 :=
  (idle0_4, sout0_A_0 c i arg3 harg3 arg4 harg4 arg5 harg5 arg6 harg6 arg7 harg7 arg8 harg8 arg9 harg9 hc0 hc1 x0 x1 x2 x3, sout0_A_1 c i arg3 harg3 arg4 harg4 arg5 harg5 arg6 harg6 arg7 harg7 arg8 harg8 arg9 harg9 hc0 hc1 x0 x1 x2 x3)
end

section
variable (hc0 : ¬cond0_0 i) (hc1 : ¬cond0_1 i) (x0 : Vec F S1x512x256 .f32) (x1 : Vec F S1x512x256 .f32) (x2 : Vec F S256x256 .f32) (x3 : Vec F S256 .f32) (xs0 : Vec F S512x256 .f32) (xs1 : Vec F S1x512 .f32)
theorem scover0_B_0 (y : S512x256.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL _ S512x256.size (by sl_kernel_rfl) y

def sout0_B_0 : Vec F S512x256 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)

theorem scover0_B_1 (y : S1x512.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL _ S1x512.size (by sl_kernel_rfl) y

def sout0_B_1 : Vec F S1x512 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)
def outs0_B : Vec F S1x512x256 .f32 × Vec F S512x256 .f32 × Vec F S1x512 .f32 :=
  (idle0_4, sout0_B_0 c i arg3 harg3 arg4 harg4 arg5 harg5 arg6 harg6 arg7 harg7 arg8 harg8 arg9 harg9 hc0 hc1 x0 x1 x2 x3 xs0 xs1, sout0_B_1 c i arg3 harg3 arg4 harg4 arg5 harg5 arg6 harg6 arg7 harg7 arg8 harg8 arg9 harg9 hc0 hc1 x0 x1 x2 x3 xs0 xs1)
end

section
variable (hc0 : ¬cond0_0 i) (hc1 : cond0_1 i) (x0 : Vec F S1x512x256 .f32) (x1 : Vec F S1x512x256 .f32) (x2 : Vec F S256x256 .f32) (x3 : Vec F S256 .f32) (xs0 : Vec F S512x256 .f32) (xs1 : Vec F S1x512 .f32)
theorem scover0_C_0 (y : S512x256.Idx) :
    ∃ pc ∈ (kernelRun0_C c i arg3 harg3 arg4 harg4 arg5 harg5 arg6 harg6 arg7 harg7 arg8 harg8 arg9 harg9 hc0 hc1 x0 x1 x2 x3 xs0 xs1).2.1, y ∈ pc.1.set :=
  View.cover_of_tiledL _ S512x256.size (by sl_kernel_rfl) y

def sout0_C_0 : Vec F S512x256 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0 xs1).2.1)

theorem scover0_C_1 (y : S1x512.Idx) :
    ∃ pc ∈ (kernelRun0_C c i arg3 harg3 arg4 harg4 arg5 harg5 arg6 harg6 arg7 harg7 arg8 harg8 arg9 harg9 hc0 hc1 x0 x1 x2 x3 xs0 xs1).2.2.1, y ∈ pc.1.set :=
  View.cover_of_tiledL _ S1x512.size (by sl_kernel_rfl) y

def sout0_C_1 : Vec F S1x512 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 x3 xs0 xs1).2.2.1)

theorem cover0_C_4 (y : S1x512x256.Idx) :
    ∃ pc ∈ (kernelRun0_C c i arg3 harg3 arg4 harg4 arg5 harg5 arg6 harg6 arg7 harg7 arg8 harg8 arg9 harg9 hc0 hc1 x0 x1 x2 x3 xs0 xs1).1, y ∈ pc.1.set :=
  View.cover_of_tiledL _ S1x512x256.size (by sl_kernel_rfl) y

def out0_C_4 : Vec F S1x512x256 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0 xs1).1)
def outs0_C : Vec F S1x512x256 .f32 × Vec F S512x256 .f32 × Vec F S1x512 .f32 :=
  (out0_C_4 c i arg3 harg3 arg4 harg4 arg5 harg5 arg6 harg6 arg7 harg7 arg8 harg8 arg9 harg9 hc0 hc1 x0 x1 x2 x3 xs0 xs1, sout0_C_0 c i arg3 harg3 arg4 harg4 arg5 harg5 arg6 harg6 arg7 harg7 arg8 harg8 arg9 harg9 hc0 hc1 x0 x1 x2 x3 xs0 xs1, sout0_C_1 c i arg3 harg3 arg4 harg4 arg5 harg5 arg6 harg6 arg7 harg7 arg8 harg8 arg9 harg9 hc0 hc1 x0 x1 x2 x3 xs0 xs1)
end
end

def at0_A (c : Dev nD) (t : Fin cfg0.N) (h0 : t.val % 8 = 0) (h1 : ¬t.val % 8 = 7) : Vec F S1x512x256 .f32 × Vec F S512x256 .f32 × Vec F S1x512 .f32 :=
  outs0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
def at0_B (c : Dev nD) (t : Fin cfg0.N) (h0 : ¬t.val % 8 = 0) (h1 : ¬t.val % 8 = 7) (p : Vec F S1x512x256 .f32 × Vec F S512x256 .f32 × Vec F S1x512 .f32) : Vec F S1x512x256 .f32 × Vec F S512x256 .f32 × Vec F S1x512 .f32 :=
  outs0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2
def at0_C (c : Dev nD) (t : Fin cfg0.N) (h0 : ¬t.val % 8 = 0) (h1 : t.val % 8 = 7) (p : Vec F S1x512x256 .f32 × Vec F S512x256 .f32 × Vec F S1x512 .f32) : Vec F S1x512x256 .f32 × Vec F S512x256 .f32 × Vec F S1x512 .f32 :=
  outs0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.2.1 p.2.2

/-- The output block and the two accumulators after position n of the grid: the position modulo 8 is the step of the reduction; step 0 starts the sums anew, step 7 also stores the hyperedge block. -/
def outsAt0 (c : Dev nD) : (n : ℕ) → n < cfg0.N → Vec F S1x512x256 .f32 × Vec F S512x256 .f32 × Vec F S1x512 .f32
  | 0, hn => at0_A V c ⟨0, hn⟩ (Nat.zero_mod _) (by dsimp only; omega)
  | n + 1, hn =>
    if h0 : (n + 1) % 8 = 0 then at0_A V c ⟨n + 1, hn⟩ h0 (by dsimp only; omega)
    else if h1 : (n + 1) % 8 = 7 then at0_C V c ⟨n + 1, hn⟩ h0 h1 (outsAt0 c n (Nat.lt_of_succ_lt hn))
    else at0_B V c ⟨n + 1, hn⟩ h0 h1 (outsAt0 c n (Nat.lt_of_succ_lt hn))

abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 8 = 0) (h1 : ¬t.val % 8 = 7) :
    outsAt0 V c t.val t.isLt = at0_A V c t h0 h1 := by
  obtain ⟨n, hn⟩ := t
  cases n with
  | zero => exact rfl
  | succ n => exact (dif_pos h0).trans rfl
theorem outsAt0_B (c : Dev nD) (t : Fin cfg0.N) (h0 : ¬t.val % 8 = 0) (h1 : ¬t.val % 8 = 7) :
    outsAt0 V c t.val t.isLt = at0_B V c t h0 h1 (prev0 V c t) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = at0_C V c t h0 h1 (prev0 V c t) := by
  obtain ⟨n, hn⟩ := t
  cases n with
  | zero => exact absurd (Nat.zero_mod _) h0
  | succ n => exact (dif_neg h0).trans ((dif_pos h1).trans rfl)

/-- What one position hands the next: the two accumulators at the contents the position before left (at anything before the first). -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem Phi_out0 (c : Dev nD) (t : Fin (cfg0.N + 1)) : (dat0 V c).Φ t ⊢ Pipeline.ΦA spec0 c := by
  rw [show (dat0 V c).Φ t = PhiS0 V c t.val (Nat.le_of_lt_succ t.isLt) from rfl]
  by_cases ht : t.val = 0
  · rw [PhiS0_zero V c _ _ ht]; try exact Idealize.SL.BI.Entails.refl _
  rw [PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in

/-- At every position the body runs from the handed-on accumulators and the position's input blocks and leaves this position's contents, the input blocks as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  rw [show (dat0 V c).leavesExact 0 t = owns (c : Thread nD τ) (ms0_0 t) fullShare ((dat0 V c).after 0 t) from by
    unfold Dat.leavesExact; rw [liveAt0_in 0 (by decide) t], after0_0]
  rw [show (dat0 V c).leavesExact 1 t = owns (c : Thread nD τ) (ms0_1 t) fullShare ((dat0 V c).after 1 t) from by
    unfold Dat.leavesExact; rw [liveAt0_in 1 (by decide) t], after0_1]
  rw [show (dat0 V c).leavesExact 2 t = owns (c : Thread nD τ) (ms0_2 t) fullShare ((dat0 V c).after 2 t) from by
    unfold Dat.leavesExact; rw [liveAt0_in 2 (by decide) t], after0_2]
  rw [show (dat0 V c).leavesExact 3 t = owns (c : Thread nD τ) (ms0_3 t) fullShare ((dat0 V c).after 3 t) from by
    unfold Dat.leavesExact; rw [liveAt0_in 3 (by decide) t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold at0_A outs0_A sout0_A_0 sout0_A_1; (try dsimp only)
    have hΦ := Phi_out0 V c t.castSucc; rw [PhiA0_eq] at hΦ
    iintro ⟨HΦ, Ho, ⟨%d0, H0⟩, ⟨%d1, H1⟩, ⟨%d2, H2⟩, ⟨%d3, H3⟩, ⟨%d4, H4⟩⟩
    ihave HΦ := hΦ $$ HΦ
    icases HΦ with ⟨⟨⟨HS0, HS1⟩, Hrest⟩, Hg⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val % 8 = 7
    · have hz : t.val ≠ 0 := by omega
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold at0_C outs0_C out0_C_4 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hz : t.val ≠ 0 := by omega
      rw [Dat.leavesExact_idle (dat0 V c) 4 t (idleAt0_4 t (fun h => h1 ((hcond0_1 t).mp h))) (noFlush0_4 t (fun h => h1 ((hcond0_1 t).mp h)))]
      rw [outsAt0_B V c t h0 h1]
      unfold at0_B outs0_B sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := Phi_out0 V c _

end Cert.Kernel.Hand

end
-- ==== Proof.K.R1A.lean ====
import proofs.«176735_j32615981646424_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : cond1_0 i) (hc1 : ¬cond1_1 i)
    (x0 : Vec F S1x512x256 .f32) (x1 : Vec F S1x512x256 .f32) (x2 : Vec F S1x512x256 .f32) :
    Σ' (L3 : List (View.Piece (Elt F) S1x512x256 .f32)) (LS0 : List (View.Piece (Elt F) S512x256 .f32)), { LS1 : List (View.Piece (Elt F) S512x1 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨[], ?_, ?_, fun xi3 E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%fo, %hfo, HO⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    isplitl [HS0]
    · iexists _; iexact HS0
    iexists _; iexact HS1

end Cert.Kernel.Hand

end
-- ==== Proof.K.R1B.lean ====
import proofs.«176735_j32615981646424_1_alg».proof.Proof.K.R1A

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : ¬cond1_0 i) (hc1 : ¬cond1_1 i)
    (x0 : Vec F S1x512x256 .f32) (x1 : Vec F S1x512x256 .f32) (x2 : Vec F S1x512x256 .f32) (xs0 : Vec F S512x256 .f32) (xs1 : Vec F S512x1 .f32) :
    Σ' (L3 : List (View.Piece (Elt F) S1x512x256 .f32)) (LS0 : List (View.Piece (Elt F) S512x256 .f32)), { LS1 : List (View.Piece (Elt F) S512x1 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨[], ?_, ?_, fun xi3 E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfo; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    isplitl [HS0]
    · iexists _; iexact HS0
    iexists _; iexact HS1

end Cert.Kernel.Hand

end
-- ==== Proof.K.R1C.lean ====
import proofs.«176735_j32615981646424_1_alg».proof.Proof.K.R1B

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : ¬cond1_0 i) (hc1 : cond1_1 i)
    (x0 : Vec F S1x512x256 .f32) (x1 : Vec F S1x512x256 .f32) (x2 : Vec F S1x512x256 .f32) (xs0 : Vec F S512x256 .f32) (xs1 : Vec F S512x1 .f32) :
    Σ' (L3 : List (View.Piece (Elt F) S1x512x256 .f32)) (LS0 : List (View.Piece (Elt F) S512x256 .f32)), { LS1 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨?_, ?_, ?_, fun E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%dO, %fo, -, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; iexact HO
    isplitl [HS0]
    · iexists _; iexact HS0
    iexists _; iexact HS1

end Cert.Kernel.Hand

end
-- ==== Proof.K.R1Data.lean ====
import proofs.«176735_j32615981646424_1_alg».proof.Proof.K.R1C

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle1_3 : Vec F S1x512x256 .f32 := VO1_3.read (Elt F) VO1_3.junk

section
variable (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole)
section
variable (hc0 : cond1_0 i) (hc1 : ¬cond1_1 i) (x0 : Vec F S1x512x256 .f32) (x1 : Vec F S1x512x256 .f32) (x2 : Vec F S1x512x256 .f32)
theorem scover1_A_0 (y : S512x256.Idx) :
    ∃ pc ∈ (kernelRun1_A c i arg3 harg3 arg4 harg4 arg5 harg5 arg6 harg6 arg7 harg7 arg8 harg8 hc0 hc1 x0 x1 x2).2.1, y ∈ pc.1.set :=
  View.cover_of_tiledL _ S512x256.size (by sl_kernel_rfl) y

def sout1_A_0 : Vec F S512x256 .f32 :=
  VS1_0.read (Elt F) (VS1_0.writes (Elt F) VS1_0.junk (kernelRun1_A c i arg3 harg3 arg4 harg4 arg5 harg5 arg6 harg6 arg7 harg7 arg8 harg8 hc0 hc1 x0 x1 x2).2.1)

theorem scover1_A_1 (y : S512x1.Idx) :
    ∃ pc ∈ (kernelRun1_A c i arg3 harg3 arg4 harg4 arg5 harg5 arg6 harg6 arg7 harg7 arg8 harg8 hc0 hc1 x0 x1 x2).2.2.1, y ∈ pc.1.set :=
  View.cover_of_tiledL _ S512x1.size (by sl_kernel_rfl) y

def sout1_A_1 : Vec F S512x1 .f32 :=
  VS1_1.read (Elt F) (VS1_1.writes (Elt F) VS1_1.junk (kernelRun1_A c i arg3 harg3 arg4 harg4 arg5 harg5 arg6 harg6 arg7 harg7 arg8 harg8 hc0 hc1 x0 x1 x2).2.2.1)
def outs1_A : Vec F S1x512x256 .f32 × Vec F S512x256 .f32 × Vec F S512x1 .f32 :=
  (idle1_3, sout1_A_0 c i arg3 harg3 arg4 harg4 arg5 harg5 arg6 harg6 arg7 harg7 arg8 harg8 hc0 hc1 x0 x1 x2, sout1_A_1 c i arg3 harg3 arg4 harg4 arg5 harg5 arg6 harg6 arg7 harg7 arg8 harg8 hc0 hc1 x0 x1 x2)
end

section
variable (hc0 : ¬cond1_0 i) (hc1 : ¬cond1_1 i) (x0 : Vec F S1x512x256 .f32) (x1 : Vec F S1x512x256 .f32) (x2 : Vec F S1x512x256 .f32) (xs0 : Vec F S512x256 .f32) (xs1 : Vec F S512x1 .f32)
theorem scover1_B_0 (y : S512x256.Idx) :
    ∃ pc ∈ (kernelRun1_B c i arg3 harg3 arg4 harg4 arg5 harg5 arg6 harg6 arg7 harg7 arg8 harg8 hc0 hc1 x0 x1 x2 xs0 xs1).2.1, y ∈ pc.1.set :=
  View.cover_of_tiledL _ S512x256.size (by sl_kernel_rfl) y

def sout1_B_0 : Vec F S512x256 .f32 :=
  VS1_0.read (Elt F) (VS1_0.writes (Elt F) VS1_0.junk (kernelRun1_B c i arg3 harg3 arg4 harg4 arg5 harg5 arg6 harg6 arg7 harg7 arg8 harg8 hc0 hc1 x0 x1 x2 xs0 xs1).2.1)

theorem scover1_B_1 (y : S512x1.Idx) :
    ∃ pc ∈ (kernelRun1_B c i arg3 harg3 arg4 harg4 arg5 harg5 arg6 harg6 arg7 harg7 arg8 harg8 hc0 hc1 x0 x1 x2 xs0 xs1).2.2.1, y ∈ pc.1.set :=
  View.cover_of_tiledL _ S512x1.size (by sl_kernel_rfl) y

def sout1_B_1 : Vec F S512x1 .f32 :=
  VS1_1.read (Elt F) (VS1_1.writes (Elt F) VS1_1.junk (kernelRun1_B c i arg3 harg3 arg4 harg4 arg5 harg5 arg6 harg6 arg7 harg7 arg8 harg8 hc0 hc1 x0 x1 x2 xs0 xs1).2.2.1)
def outs1_B : Vec F S1x512x256 .f32 × Vec F S512x256 .f32 × Vec F S512x1 .f32 :=
  (idle1_3, sout1_B_0 c i arg3 harg3 arg4 harg4 arg5 harg5 arg6 harg6 arg7 harg7 arg8 harg8 hc0 hc1 x0 x1 x2 xs0 xs1, sout1_B_1 c i arg3 harg3 arg4 harg4 arg5 harg5 arg6 harg6 arg7 harg7 arg8 harg8 hc0 hc1 x0 x1 x2 xs0 xs1)
end

section
variable (hc0 : ¬cond1_0 i) (hc1 : cond1_1 i) (x0 : Vec F S1x512x256 .f32) (x1 : Vec F S1x512x256 .f32) (x2 : Vec F S1x512x256 .f32) (xs0 : Vec F S512x256 .f32) (xs1 : Vec F S512x1 .f32)
theorem scover1_C_0 (y : S512x256.Idx) :
    ∃ pc ∈ (kernelRun1_C c i arg3 harg3 arg4 harg4 arg5 harg5 arg6 harg6 arg7 harg7 arg8 harg8 hc0 hc1 x0 x1 x2 xs0 xs1).2.1, y ∈ pc.1.set :=
  View.cover_of_tiledL _ S512x256.size (by sl_kernel_rfl) y

def sout1_C_0 : Vec F S512x256 .f32 :=
  VS1_0.read (Elt F) (VS1_0.writes (Elt F) VS1_0.junk (kernelRun1_C c i arg3 harg3 arg4 harg4 arg5 harg5 arg6 harg6 arg7 harg7 arg8 harg8 hc0 hc1 x0 x1 x2 xs0 xs1).2.1)

theorem scover1_C_1 (y : S512x1.Idx) :
    ∃ pc ∈ (kernelRun1_C c i arg3 harg3 arg4 harg4 arg5 harg5 arg6 harg6 arg7 harg7 arg8 harg8 hc0 hc1 x0 x1 x2 xs0 xs1).2.2.1, y ∈ pc.1.set :=
  View.cover_of_tiledL _ S512x1.size (by sl_kernel_rfl) y

def sout1_C_1 : Vec F S512x1 .f32 :=
  VS1_1.read (Elt F) (VS1_1.writes (Elt F) VS1_1.junk (kernelRun1_C c i arg3 harg3 arg4 harg4 arg5 harg5 arg6 harg6 arg7 harg7 arg8 harg8 hc0 hc1 x0 x1 x2 xs0 xs1).2.2.1)

theorem cover1_C_3 (y : S1x512x256.Idx) :
    ∃ pc ∈ (kernelRun1_C c i arg3 harg3 arg4 harg4 arg5 harg5 arg6 harg6 arg7 harg7 arg8 harg8 hc0 hc1 x0 x1 x2 xs0 xs1).1, y ∈ pc.1.set :=
  View.cover_of_tiledL _ S1x512x256.size (by sl_kernel_rfl) y

def out1_C_3 : Vec F S1x512x256 .f32 :=
  VO1_3.read (Elt F) (VO1_3.writes (Elt F) VO1_3.junk (kernelRun1_C c i arg3 harg3 arg4 harg4 arg5 harg5 arg6 harg6 arg7 harg7 arg8 harg8 hc0 hc1 x0 x1 x2 xs0 xs1).1)
def outs1_C : Vec F S1x512x256 .f32 × Vec F S512x256 .f32 × Vec F S512x1 .f32 :=
  (out1_C_3 c i arg3 harg3 arg4 harg4 arg5 harg5 arg6 harg6 arg7 harg7 arg8 harg8 hc0 hc1 x0 x1 x2 xs0 xs1, sout1_C_0 c i arg3 harg3 arg4 harg4 arg5 harg5 arg6 harg6 arg7 harg7 arg8 harg8 hc0 hc1 x0 x1 x2 xs0 xs1, sout1_C_1 c i arg3 harg3 arg4 harg4 arg5 harg5 arg6 harg6 arg7 harg7 arg8 harg8 hc0 hc1 x0 x1 x2 xs0 xs1)
end
end

def at1_A (c : Dev nD) (t : Fin cfg1.N) (h0 : t.val % 8 = 0) (h1 : ¬t.val % 8 = 7) : Vec F S1x512x256 .f32 × Vec F S512x256 .f32 × Vec F S512x1 .f32 :=
  outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)
def at1_B (c : Dev nD) (t : Fin cfg1.N) (h0 : ¬t.val % 8 = 0) (h1 : ¬t.val % 8 = 7) (p : Vec F S1x512x256 .f32 × Vec F S512x256 .f32 × Vec F S512x1 .f32) : Vec F S1x512x256 .f32 × Vec F S512x256 .f32 × Vec F S512x1 .f32 :=
  outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.2.1 p.2.2
def at1_C (c : Dev nD) (t : Fin cfg1.N) (h0 : ¬t.val % 8 = 0) (h1 : t.val % 8 = 7) (p : Vec F S1x512x256 .f32 × Vec F S512x256 .f32 × Vec F S512x1 .f32) : Vec F S1x512x256 .f32 × Vec F S512x256 .f32 × Vec F S512x1 .f32 :=
  outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.2.1 p.2.2

/-- The output block and the two accumulators after position n of the grid: the position modulo 8 is the step of the reduction; step 0 starts the sums anew, step 7 also stores the node block. -/
def outsAt1 (c : Dev nD) : (n : ℕ) → n < cfg1.N → Vec F S1x512x256 .f32 × Vec F S512x256 .f32 × Vec F S512x1 .f32
  | 0, hn => at1_A V c ⟨0, hn⟩ (Nat.zero_mod _) (by dsimp only; omega)
  | n + 1, hn =>
    if h0 : (n + 1) % 8 = 0 then at1_A V c ⟨n + 1, hn⟩ h0 (by dsimp only; omega)
    else if h1 : (n + 1) % 8 = 7 then at1_C V c ⟨n + 1, hn⟩ h0 h1 (outsAt1 c n (Nat.lt_of_succ_lt hn))
    else at1_B V c ⟨n + 1, hn⟩ h0 h1 (outsAt1 c n (Nat.lt_of_succ_lt hn))

abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) (h1 : ¬t.val % 8 = 7) :
    outsAt1 V c t.val t.isLt = at1_A V c t h0 h1 := by
  obtain ⟨n, hn⟩ := t
  cases n with
  | zero => exact rfl
  | succ n => exact (dif_pos h0).trans rfl
theorem outsAt1_B (c : Dev nD) (t : Fin cfg1.N) (h0 : ¬t.val % 8 = 0) (h1 : ¬t.val % 8 = 7) :
    outsAt1 V c t.val t.isLt = at1_B V c t h0 h1 (prev1 V c t) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = at1_C V c t h0 h1 (prev1 V c t) := by
  obtain ⟨n, hn⟩ := t
  cases n with
  | zero => exact absurd (Nat.zero_mod _) h0
  | succ n => exact (dif_neg h0).trans ((dif_pos h1).trans rfl)

/-- What one position hands the next: the two accumulators at the contents the position before left (at anything before the first). -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  by_cases ht : t.val = 0
  · rw [PhiS1_zero V c _ _ ht]; try exact Idealize.SL.BI.Entails.refl _
  rw [PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

/-- At every position the body runs from the handed-on accumulators and the position's input blocks and leaves this position's contents, the input blocks as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold at1_A outs1_A sout1_A_0 sout1_A_1; (try dsimp only)
    have hΦ := Phi_out1 V c t.castSucc; rw [PhiA1_eq] at hΦ
    iintro ⟨HΦ, Ho, ⟨%d0, H0⟩, ⟨%d1, H1⟩, ⟨%d2, H2⟩, ⟨%d3, H3⟩⟩
    ihave HΦ := hΦ $$ HΦ
    icases HΦ with ⟨⟨⟨HS0, HS1⟩, Hrest⟩, Hg⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    iexists _; iexact H3
  · by_cases h1 : t.val % 8 = 7
    · have hz : t.val ≠ 0 := by omega
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold at1_C outs1_C out1_C_3 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    · have hz : t.val ≠ 0 := by omega
      rw [Dat.leavesExact_idle (dat1 V c) 3 t (idleAt1_3 t (fun h => h1 ((hcond1_1 t).mp h))) (noFlush1_3 t (fun h => h1 ((hcond1_1 t).mp h)))]
      rw [outsAt1_B V c t h0 h1]
      unfold at1_B outs1_B sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := Phi_out1 V c _

end Cert.Kernel.Hand

end
-- ==== Proof.K.R2.lean ====
import proofs.«176735_j32615981646424_1_alg».proof.Proof.K.Shared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2 (c : Dev nD) (i : grid2.Coords) (arg2 : Memref sig .tc .vmem S1x1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S1x1024x256 .f32) (harg9 : arg9.IsWhole)
    (x0 : Vec F S1x1024x256 .f32) (x1 : Vec F S1024x256 .f32) (x2 : Vec F S1024 .f32) (x3 : Vec F S256x1024 .f32) (x4 : Vec F S256 .f32) (x5 : Vec F S256 .f32) (x6 : Vec F S256 .f32) :
    { L7 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc2__k3_body i arg2 harg2 arg3 harg3 arg4 harg4 arg5 harg5 arg6 harg6 arg7 harg7 arg8 harg8 arg9 harg9) K } := by
  refine ⟨?_, fun E K => ?run⟩
  case run =>
    simp only [cc2__k3_body_eq_skeleton]; unfold cc2__k3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HO

end Cert.Kernel.Hand

end
-- ==== Proof.K.R2Data.lean ====
import proofs.«176735_j32615981646424_1_alg».proof.Proof.K.R2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1x1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S1x1024x256 .f32) (harg9 : arg9.IsWhole)
section
variable (x0 : Vec F S1x1024x256 .f32) (x1 : Vec F S1024x256 .f32) (x2 : Vec F S1024 .f32) (x3 : Vec F S256x1024 .f32) (x4 : Vec F S256 .f32) (x5 : Vec F S256 .f32) (x6 : Vec F S256 .f32)
theorem cover2_7 (y : S1x1024x256.Idx) :
    ∃ pc ∈ (kernelRun2 c i arg2 harg2 arg3 harg3 arg4 harg4 arg5 harg5 arg6 harg6 arg7 harg7 arg8 harg8 arg9 harg9 x0 x1 x2 x3 x4 x5 x6).1, y ∈ pc.1.set :=
  View.cover_of_tiledL _ S1x1024x256.size (by sl_kernel_rfl) y

def out2_7 : Vec F S1x1024x256 .f32 :=
  VO2_7.read (Elt F) (VO2_7.writes (Elt F) VO2_7.junk (kernelRun2 c i arg2 harg2 arg3 harg3 arg4 harg4 arg5 harg5 arg6 harg6 arg7 harg7 arg8 harg8 arg9 harg9 x0 x1 x2 x3 x4 x5 x6).1)
end
end

abbrev outAt2 (c : Dev nD) (t : Fin cfg2.N) : Vec F S1x1024x256 .f32 :=
  out2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in

/-- At every position the body runs from the position's input blocks and leaves its result in the output block, the input blocks as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  rw [show (dat2 V c).leavesExact 3 t = owns (c : Thread nD τ) (ms2_3 t) fullShare ((dat2 V c).after 3 t) from by
    unfold Dat.leavesExact; rw [liveAt2_in 3 (by decide) t], after2_3]
  rw [show (dat2 V c).leavesExact 4 t = owns (c : Thread nD τ) (ms2_4 t) fullShare ((dat2 V c).after 4 t) from by
    unfold Dat.leavesExact; rw [liveAt2_in 4 (by decide) t], after2_4]
  rw [show (dat2 V c).leavesExact 5 t = owns (c : Thread nD τ) (ms2_5 t) fullShare ((dat2 V c).after 5 t) from by
    unfold Dat.leavesExact; rw [liveAt2_in 5 (by decide) t], after2_5]
  rw [show (dat2 V c).leavesExact 6 t = owns (c : Thread nD τ) (ms2_6 t) fullShare ((dat2 V c).after 6 t) from by
    unfold Dat.leavesExact; rw [liveAt2_in 6 (by decide) t], after2_6]
  rw [show (dat2 V c).leavesExact 7 t = owns (c : Thread nD τ) (ms2_7 t) fullShare ((dat2 V c).after 7 t) from by
    unfold Dat.leavesExact; rw [liveAt2_7 t], after2_7]
  unfold outAt2 out2_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2 c (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_7 c _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.Kernel.Hand

end
-- ==== Proof.K.Segs.lean ====
import proofs.«176735_j32615981646424_1_alg».proof.Proof.K.R0Data
import proofs.«176735_j32615981646424_1_alg».proof.Proof.K.R1Data
import proofs.«176735_j32615981646424_1_alg».proof.Proof.K.R2Data
import proofs.«176735_j32615981646424_1_alg».proof.Proof.Gen.Kernel.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

section
variable {cfg : Cfg sig Λ₀} (d : (c : Dev nD) → Dat τ (Elt F) Unit ℕ (UR sig nD τ) ℕ cfg c) (o : Fin cfg.W)
  (V : Dev nD → Valuation τ sig (Elt F)) (c : Dev nD)

def nxt : Valuation τ sig (Elt F) := Function.update (V c) (Pipeline.arrRef cfg.spec o) ((d c).arrAt o cfg.N)

theorem nxt_self : nxt d o V c (Pipeline.arrRef cfg.spec o) = (d c).arrAt o cfg.N := Function.update_self _ _ _
theorem nxt_of_ne (b : Ref sig .tc) (h : b ≠ Pipeline.arrRef cfg.spec o) : nxt d o V c b = V c b :=
  Function.update_of_ne (StableHlo.devRef_ne_of_ne h) _ _
end

abbrev Wa (c : Dev nD) : Valuation τ sig (Elt F) := fun b => m (c, b)
def Ua (c : Dev nD) (b : Ref sig .tc) : Buf (Elt F) ((c : Thread nD τ).loc b) := m ((c : Thread nD τ).loc b)
def Wb : Dev nD → Valuation τ sig (Elt F) := nxt (dat0 (Ua m)) 4 (Wa m)
def Ub (c : Dev nD) (b : Ref sig .tc) : Buf (Elt F) ((c : Thread nD τ).loc b) := Wb m c b
def Wc : Dev nD → Valuation τ sig (Elt F) := nxt (dat1 (Ub m)) 3 (Wb m)
def Uc (c : Dev nD) (b : Ref sig .tc) : Buf (Elt F) ((c : Thread nD τ).loc b) := Wc m c b
def Wd : Dev nD → Valuation τ sig (Elt F) := nxt (dat2 (Uc m)) 7 (Wc m)

theorem Ub_v0 (c : Dev nD) : Ub m c main_v0 = (dat0 (Ua m) c).arrAt 4 cfg0.N := nxt_self (dat0 (Ua m)) 4 (Wa m) c
theorem Ub_of_ne (c : Dev nD) (b : Ref sig .tc) (h : b ≠ main_v0) : Ub m c b = Ua m c b := nxt_of_ne _ _ _ c b h
theorem Uc_v1 (c : Dev nD) : Uc m c main_v1 = (dat1 (Ub m) c).arrAt 3 cfg1.N := nxt_self (dat1 (Ub m)) 3 (Wb m) c
theorem Uc_of_ne (c : Dev nD) (b : Ref sig .tc) (h : b ≠ main_v1) : Uc m c b = Ub m c b := nxt_of_ne _ _ _ c b h

def pdats : (p : Fin 3) → (c : Dev nD) → Dat τ (Elt F) Unit ℕ (UR sig nD τ) ℕ (Pipeline.pin (pcfgs (F := F)) adm p) c
  | ⟨0, _⟩ => dat0 (Ua m)
  | ⟨1, _⟩ => dat1 (Ub m)
  | ⟨2, _⟩ => dat2 (Uc m)
abbrev Lz : GSem nD τ sig → Finset Unit := fun _ => ∅
abbrev lz : GSem nD τ sig → Unit → ℕ := fun _ _ => 0

abbrev Ts (V : Dev nD → Valuation τ sig (Elt F)) (c : Dev nD) : sProp 𝕄 :=
  iprop(iprop(StableHlo.held (c : Thread nD τ) (Pipeline.ucRefs τ sig) (V c) ∗ ∃ r, prngReg c r) ∗ ∃ W, owes (c : Thread nD τ) (0 : CellTallies nD τ sig Unit) W)

section
variable {p : Fin 3} (lf : Pipeline.LaunchFacts (nD := nD) (τ := τ) cfgs p) (o : Fin (cfgs p).W)
  (V : Dev nD → Valuation τ sig (Elt F))

def regOf (hb : ∀ c, BodyObligation (pdats m p c) defs₀ Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hio : ∀ w, w ≠ o → ((cfgs p).win w).isOut = false)
    (hq : ∀ c w, (pdats m p c).q w = fullShare)
    (hA : ∀ c w, (pdats m p c).A w = V c (Pipeline.arrRef (cfgs p).spec w))
    (how : ∀ c t, (pdats m p c).owed t = 0)
    (hrec : ∀ c x, x ∈ (pdats m p c).recorded 0) :
    Pipeline.RegionSeg (pcfgs (F := F)) adm (pdats m) () defs₀ Variants.none Lz lz p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lz lz p how
  pre := Ts V
  post := Ts (nxt (pdats m p) o V)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (pcfgs (F := F)) adm (pdats m) lf.win lf.arr_whole c
      ((pdats m p c).share_full (hq c)) (fun b => V c b) (hA c)
    rw [Pipeline.unscopedBufs_held c (V c)] at hsplit
    iintro ⟨⟨⟨Hbufs, Hreg⟩, Howes⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin; rw [how c]
      icases Howes with ⟨%W, Howes⟩; iexists W; isplitr; · ipureintro; exact fun x _ => Or.inl (hrec c x)
      iexact Howes
    isplitl [Hreg]; · iexact Hreg
    iexact Hoff
  hin c := by
    refine .trans ?_ (hi c)
    unfold Pipeline.ΦA
    iintro ⟨Hreg, -, Hsc⟩
    isplitl [Hsc] <;> iassumption
  hout c := by
    rw [Pipeline.ownSems0_none]
    refine (ho c).trans ?_
    unfold Pipeline.ΦA
    iintro ⟨Hsc, Hreg⟩
    isplitl [Hreg]; · iexact Hreg
    isplitr; · iempintro
    iexact Hsc
  hexit c := by
    have hjoin := Pipeline.unscopedBufs_of_arrays (pcfgs (F := F)) adm lf.win lf.arr_whole c (pdats m) ((pdats m p c).share_full (hq c))
      (fun b => V c b) (fun b => nxt (pdats m p) o V c b) ((pdats m p c).arrAt · (cfgs p).N)
      (fun w => by
        by_cases h : w = o
        · subst h; exact (nxt_self ..).symm
        · exact ((pdats m p c).arrAt_in w (hio w h) _).trans ((hA c w).trans (nxt_of_ne _ o V c _ (lf.win.arr_inj.ne h)).symm))
      fun b hb => nxt_of_ne _ o V c b fun e => hb (Finset.mem_image.mpr ⟨o, Finset.mem_univ _, e.symm⟩)
    rw [Pipeline.unscopedBufs_held c (nxt (pdats m p) o V c)] at hjoin
    iintro ⟨Harr, Howes, Hreg, Hoff⟩
    imodintro
    isplitl [Harr Hoff Hreg]
    · isplitl [Harr Hoff]
      · iapply hjoin; isplitl [Harr] <;> iassumption
      iexact Hreg
    unfold Pipeline.Dat.owesAt Pipeline.owesWithin; rw [how c]
    icases Howes with ⟨%W, -, Howes⟩; iexists W; iexact Howes
end

abbrev segL : List (Pipeline.Seg (pcfgs (F := F)) adm (pdats m) () defs₀ Variants.none Lz lz) :=
  [.region (regOf m launch0 4 (Wa m) (body_obligation0 _) (hin0 _) (hout0 _) (by decide)
      (fun _ _ => rfl) (fun _ _ => rfl) (fun _ _ => rfl) fun _ _ => trivial),
   .region (regOf m launch1 3 (Wb m) (body_obligation1 _) (hin1 _) (hout1 _) (by decide)
      (fun _ _ => rfl) (fun _ _ => rfl) (fun _ _ => rfl) fun _ _ => trivial),
   .region (regOf m launch2 7 (Wc m) (body_obligation2 _) (hin2 _) (hout2 _) (by decide)
      (fun _ _ => rfl) (fun _ _ => rfl) (fun _ _ => rfl) fun _ _ => trivial)]

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v2) = (dat2 (Uc m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ Variants.none Lz lz m ρ main
    (fun _ => segL m) (fun c Q => by rewrite [main_segs adm (pdats m) () Variants.none Lz lz _ _ _ c]; exact .rfl)
    (fun c => by simp only [segL, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_) (T₀ := Ts (Wa m))
    (Tₙ := fun c => iprop(StableHlo.held (c : Thread nD τ) (Pipeline.ucRefs τ sig) (Wd m c) ∗ ∃ r, prngReg c r))
    (hch := fun c => ⟨.rfl, .rfl, .rfl, .rfl⟩)
    (hinit := ?_)
    (QY := fun c s => ∀ b ∈ Pipeline.ucRefs τ sig, s.mem ((c : Thread nD τ).1, b) = Wd m c b)
    (hfin := fun c s' => ?_)
    (hQ := fun s h c => ?_)
  · iintro Hu; imodintro
    isplitl [Hu]
    · iapply (show (ownU _ : sProp 𝕄) ⊢ BI.own (emb₁ _) from .rfl)
      iexact Hu
    iapply (show (BI.emp : sProp 𝕄) ⊢ bigSep Finset.univ (fun _ : Dev nD => (BI.emp : sProp 𝕄)) from by rw [BI.bigSep_emp_const])
    iempintro
  · refine Pipeline.initEach Lz lz fun c => ?_
    rw [show unscopedBufs c (fun b => m ((c : Thread nD τ).loc b)) = _ from Pipeline.unscopedBufs_held c (Wa m c)]
    iintro ⟨⟨Hbufs, -, Howes, -, Hreg, -⟩, -⟩
    imodintro
    isplitr [Howes]
    · isplitl [Hbufs]; · iexact Hbufs
      iexists _; iexact Hreg
    iexists ∅; iexact Howes
  · iintro ⟨⟨Hbufs, -⟩, HSI⟩
    unfold StableHlo.held
    imodintro
    iapply (pointsTo_read_all (Pipeline.ucRefs τ sig) (fun b => ((c : Thread nD τ).1, b)) (Wd m c) s')
    isplitl [Hbufs] <;> iassumption
  · have r (b : Ref sig .tc) (hb : ¬ (Proc.devRef .tc b : DevRef τ sig).isScoped) :
        s.mem ((c : Thread nD τ).loc b) = Wd m c b := h c _ (Finset.mem_filter.mpr ⟨StableHlo.devRef_mem_tcRefs b, hb⟩)
    refine ⟨(r main_v2 (by decide)).trans (nxt_self (dat2 (Uc m)) 7 _ c), ?_, ?_, ?_, ?_, ?_, ?_, ?_, ?_, ?_, ?_⟩ <;>
      exact (r _ (by decide)).trans ((nxt_of_ne (dat2 (Uc m)) 7 _ c _ (by decide)).trans ((Uc_of_ne m c _ (by decide)).trans (Ub_of_ne m c _ (by decide))))

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.Kernel.Hand

end
-- ==== Proof.KI.Shared.lean ====
import proofs.«176735_j32615981646424_1_alg».proof.Proof.Gen.KernelIdeal.Launch
import proofs.«176735_j32615981646424_1_alg».proof.Proof.Gen.KernelIdeal.Skeleton
import proofs.«176735_j32615981646424_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond0_0 (i : grid0.Coords) : Prop := (Scalar.cmpi .ne (Scalar.extui (Scalar.cmpi .eq (BitVec.ofNat 32 (i 2).val) 0#32)) 0#32) = 1#1
/-- The reduction coordinate is the grid's last: a position's step is the position modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem liveAt2_7 : ∀ t : Fin cfg2.N, cfg2.idle 7 (grid2.coords t) = false := by decide +kernel

theorem liveAt0_in : ∀ (w : Fin 5), w ≠ 4 → ∀ t : Fin cfg0.N, cfg0.idle w (grid0.coords t) = false := by decide +kernel
theorem liveAt1_in : ∀ (w : Fin 4), w ≠ 3 → ∀ t : Fin cfg1.N, cfg1.idle w (grid1.coords t) = false := by decide +kernel
theorem liveAt2_in : ∀ (w : Fin 8), w ≠ 7 → ∀ t : Fin cfg2.N, cfg2.idle w (grid2.coords t) = false := by decide +kernel

abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x256 .f32 := win0_4.stage (cfg0.slots t 4)
abbrev hs0_4 (t : Fin cfg0.N) : (ms0_4 t).IsWhole := hstage0_4 ((cfg0.slots t 4).cast nbuf0_4)
abbrev ms1_0 (t : Fin cfg1.N) : Memref sig .tc .vmem S1x512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x256 .f32 := win1_3.stage (cfg1.slots t 3)
abbrev hs1_3 (t : Fin cfg1.N) : (ms1_3 t).IsWhole := hstage1_3 ((cfg1.slots t 3).cast nbuf1_3)
abbrev ms2_0 (t : Fin cfg2.N) : Memref sig .tc .vmem S1x1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1024x256 .f32 := win2_7.stage (cfg2.slots t 7)
abbrev hs2_7 (t : Fin cfg2.N) : (ms2_7 t).IsWhole := hstage2_7 ((cfg2.slots t 7).cast nbuf2_7)

abbrev scM0_0 : Memref sig .tc .vmem S512x256 .f32 := Memref.whole cc0_scratch0
abbrev scM0_1 : Memref sig .tc .vmem S1x512 .f32 := Memref.whole cc0_scratch1

abbrev scM1_0 : Memref sig .tc .vmem S512x256 .f32 := Memref.whole cc1_scratch0
abbrev scM1_1 : Memref sig .tc .vmem S512x1 .f32 := Memref.whole cc1_scratch1

abbrev VS0_0 : View sig .tc .vmem S512x256 .f32 := scM0_0.view
abbrev VS0_1 : View sig .tc .vmem S1x512 .f32 := scM0_1.view
abbrev VS1_0 : View sig .tc .vmem S512x256 .f32 := scM1_0.view
abbrev VS1_1 : View sig .tc .vmem S512x1 .f32 := scM1_1.view
abbrev VO0_4 : View sig .tc .vmem S1x512x256 .f32 := (Memref.whole cc0_stg4_0 : Memref sig .tc .vmem S1x512x256 .f32).view
abbrev VO1_3 : View sig .tc .vmem S1x512x256 .f32 := (Memref.whole cc1_stg3_0 : Memref sig .tc .vmem S1x512x256 .f32).view
abbrev VO2_7 : View sig .tc .vmem S1x1024x256 .f32 := (Memref.whole cc2_stg7_0 : Memref sig .tc .vmem S1x1024x256 .f32).view

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

abbrev rest0 (c : Dev nD) : sProp 𝕄 := Pipeline.scopedRestBut (Ix := Unit) (Name := ℕ) (U := UR sig nD τ) (Lvl := ℕ) (Val := Elt F) spec0 c [cc0_scratch0, cc0_scratch1]
abbrev rest1 (c : Dev nD) : sProp 𝕄 := Pipeline.scopedRestBut (Ix := Unit) (Name := ℕ) (U := UR sig nD τ) (Lvl := ℕ) (Val := Elt F) spec1 c [cc1_scratch0, cc1_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.KernelIdeal.Hand

end
-- ==== Proof.KI.R0A.lean ====
import proofs.«176735_j32615981646424_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : cond0_0 i) (hc1 : ¬cond0_1 i)
    (x0 : Vec F S1x512x256 .f32) (x1 : Vec F S1x512x256 .f32) (x2 : Vec F S256x256 .f32) (x3 : Vec F S256 .f32) :
    Σ' (L4 : List (View.Piece (Elt F) S1x512x256 .f32)) (LS0 : List (View.Piece (Elt F) S512x256 .f32)), { LS1 : List (View.Piece (Elt F) S1x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨[], ?_, ?_, fun xi4 E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HS0]
    · iexists _; iexact HS0
    iexists _; iexact HS1

end Cert.KernelIdeal.Hand

end
-- ==== Proof.KI.R0B.lean ====
import proofs.«176735_j32615981646424_1_alg».proof.Proof.KI.R0A

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : ¬cond0_0 i) (hc1 : ¬cond0_1 i)
    (x0 : Vec F S1x512x256 .f32) (x1 : Vec F S1x512x256 .f32) (x2 : Vec F S256x256 .f32) (x3 : Vec F S256 .f32) (xs0 : Vec F S512x256 .f32) (xs1 : Vec F S1x512 .f32) :
    Σ' (L4 : List (View.Piece (Elt F) S1x512x256 .f32)) (LS0 : List (View.Piece (Elt F) S512x256 .f32)), { LS1 : List (View.Piece (Elt F) S1x512 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨[], ?_, ?_, fun xi4 E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HS0]
    · iexists _; iexact HS0
    iexists _; iexact HS1

end Cert.KernelIdeal.Hand

end
-- ==== Proof.KI.R0C.lean ====
import proofs.«176735_j32615981646424_1_alg».proof.Proof.KI.R0B

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole) (hc0 : ¬cond0_0 i) (hc1 : cond0_1 i)
    (x0 : Vec F S1x512x256 .f32) (x1 : Vec F S1x512x256 .f32) (x2 : Vec F S256x256 .f32) (x3 : Vec F S256 .f32) (xs0 : Vec F S512x256 .f32) (xs1 : Vec F S1x512 .f32) :
    Σ' (L4 : List (View.Piece (Elt F) S1x512x256 .f32)) (LS0 : List (View.Piece (Elt F) S512x256 .f32)), { LS1 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__k1_body i arg3 harg3 arg4 harg4 arg5 harg5 arg6 harg6 arg7 harg7 arg8 harg8 arg9 harg9) K } := by
  refine ⟨?_, ?_, ?_, fun E K => ?run⟩
  case run =>
    simp only [cc0__k1_body_eq_skeleton]; unfold cc0__k1_body_skel
    unfold owns
    iintro ⟨⟨%f0, %hf0, H0⟩, ⟨%f1, %hf1, H1⟩, ⟨%f2, %hf2, H2⟩, ⟨%f3, %hf3, H3⟩, ⟨%dO, %fo, -, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HS0]
    · iexists _; iexact HS0
    iexists _; iexact HS1

end Cert.KernelIdeal.Hand

end
-- ==== Proof.KI.R0Data.lean ====
import proofs.«176735_j32615981646424_1_alg».proof.Proof.KI.R0C

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle0_4 : Vec F S1x512x256 .f32 := VO0_4.read (Elt F) VO0_4.junk

section
variable (c : Dev nD) (i : grid0.Coords) (arg3 : Memref sig .tc .vmem S1x512x256 .f32) (harg3 : arg3.IsWhole) (arg4 : Memref sig .tc .vmem S1x512x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole) (arg8 : Memref sig .tc .vmem S512x256 .f32) (harg8 : arg8.IsWhole) (arg9 : Memref sig .tc .vmem S1x512 .f32) (harg9 : arg9.IsWhole)
section
variable (hc0 : cond0_0 i) (hc1 : ¬cond0_1 i) (x0 : Vec F S1x512x256 .f32) (x1 : Vec F S1x512x256 .f32) (x2 : Vec F S256x256 .f32) (x3 : Vec F S256 .f32)
theorem scover0_A_0 (y : S512x256.Idx) :
    ∃ pc ∈ (kernelRun0_A c i arg3 harg3 arg4 harg4 arg5 harg5 arg6 harg6 arg7 harg7 arg8 harg8 arg9 harg9 hc0 hc1 x0 x1 x2 x3).2.1, y ∈ pc.1.set :=
  View.cover_of_tiledL _ S512x256.size (by sl_kernel_rfl) y

def sout0_A_0 : Vec F S512x256 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3).2.1)

theorem scover0_A_1 (y : S1x512.Idx) :
    ∃ pc ∈ (kernelRun0_A c i arg3 harg3 arg4 harg4 arg5 harg5 arg6 harg6 arg7 harg7 arg8 harg8 arg9 harg9 hc0 hc1 x0 x1 x2 x3).2.2.1, y ∈ pc.1.set :=
  View.cover_of_tiledL _ S1x512.size (by sl_kernel_rfl) y

def sout0_A_1 : Vec F S1x512 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2 x3).2.2.1)
def outs0_A : Vec F S1x512x256 .f32 × Vec F S512x256 .f32 × Vec F S1x512 .f32 :=
  (idle0_4, sout0_A_0 c i arg3 harg3 arg4 harg4 arg5 harg5 arg6 harg6 arg7 harg7 arg8 harg8 arg9 harg9 hc0 hc1 x0 x1 x2 x3, sout0_A_1 c i arg3 harg3 arg4 harg4 arg5 harg5 arg6 harg6 arg7 harg7 arg8 harg8 arg9 harg9 hc0 hc1 x0 x1 x2 x3)
end

section
variable (hc0 : ¬cond0_0 i) (hc1 : ¬cond0_1 i) (x0 : Vec F S1x512x256 .f32) (x1 : Vec F S1x512x256 .f32) (x2 : Vec F S256x256 .f32) (x3 : Vec F S256 .f32) (xs0 : Vec F S512x256 .f32) (xs1 : Vec F S1x512 .f32)
theorem scover0_B_0 (y : S512x256.Idx) :
    ∃ pc ∈ (kernelRun0_B c i arg3 harg3 arg4 harg4 arg5 harg5 arg6 harg6 arg7 harg7 arg8 harg8 arg9 harg9 hc0 hc1 x0 x1 x2 x3 xs0 xs1).2.1, y ∈ pc.1.set :=
  View.cover_of_tiledL _ S512x256.size (by sl_kernel_rfl) y

def sout0_B_0 : Vec F S512x256 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 xs0 xs1).2.1)

theorem scover0_B_1 (y : S1x512.Idx) :
    ∃ pc ∈ (kernelRun0_B c i arg3 harg3 arg4 harg4 arg5 harg5 arg6 harg6 arg7 harg7 arg8 harg8 arg9 harg9 hc0 hc1 x0 x1 x2 x3 xs0 xs1).2.2.1, y ∈ pc.1.set :=
  View.cover_of_tiledL _ S1x512.size (by sl_kernel_rfl) y

def sout0_B_1 : Vec F S1x512 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 x3 xs0 xs1).2.2.1)
def outs0_B : Vec F S1x512x256 .f32 × Vec F S512x256 .f32 × Vec F S1x512 .f32 :=
  (idle0_4, sout0_B_0 c i arg3 harg3 arg4 harg4 arg5 harg5 arg6 harg6 arg7 harg7 arg8 harg8 arg9 harg9 hc0 hc1 x0 x1 x2 x3 xs0 xs1, sout0_B_1 c i arg3 harg3 arg4 harg4 arg5 harg5 arg6 harg6 arg7 harg7 arg8 harg8 arg9 harg9 hc0 hc1 x0 x1 x2 x3 xs0 xs1)
end

section
variable (hc0 : ¬cond0_0 i) (hc1 : cond0_1 i) (x0 : Vec F S1x512x256 .f32) (x1 : Vec F S1x512x256 .f32) (x2 : Vec F S256x256 .f32) (x3 : Vec F S256 .f32) (xs0 : Vec F S512x256 .f32) (xs1 : Vec F S1x512 .f32)
theorem scover0_C_0 (y : S512x256.Idx) :
    ∃ pc ∈ (kernelRun0_C c i arg3 harg3 arg4 harg4 arg5 harg5 arg6 harg6 arg7 harg7 arg8 harg8 arg9 harg9 hc0 hc1 x0 x1 x2 x3 xs0 xs1).2.1, y ∈ pc.1.set :=
  View.cover_of_tiledL _ S512x256.size (by sl_kernel_rfl) y

def sout0_C_0 : Vec F S512x256 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 xs0 xs1).2.1)

theorem scover0_C_1 (y : S1x512.Idx) :
    ∃ pc ∈ (kernelRun0_C c i arg3 harg3 arg4 harg4 arg5 harg5 arg6 harg6 arg7 harg7 arg8 harg8 arg9 harg9 hc0 hc1 x0 x1 x2 x3 xs0 xs1).2.2.1, y ∈ pc.1.set :=
  View.cover_of_tiledL _ S1x512.size (by sl_kernel_rfl) y

def sout0_C_1 : Vec F S1x512 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 x3 xs0 xs1).2.2.1)

theorem cover0_C_4 (y : S1x512x256.Idx) :
    ∃ pc ∈ (kernelRun0_C c i arg3 harg3 arg4 harg4 arg5 harg5 arg6 harg6 arg7 harg7 arg8 harg8 arg9 harg9 hc0 hc1 x0 x1 x2 x3 xs0 xs1).1, y ∈ pc.1.set :=
  View.cover_of_tiledL _ S1x512x256.size (by sl_kernel_rfl) y

def out0_C_4 : Vec F S1x512x256 .f32 :=
  VO0_4.read (Elt F) (VO0_4.writes (Elt F) VO0_4.junk (kernelRun0_C c i arg3 harg3 arg4 harg4 arg5 harg5 arg6 harg6 arg7 harg7 arg8 harg8 arg9 harg9 hc0 hc1 x0 x1 x2 x3 xs0 xs1).1)
def outs0_C : Vec F S1x512x256 .f32 × Vec F S512x256 .f32 × Vec F S1x512 .f32 :=
  (out0_C_4 c i arg3 harg3 arg4 harg4 arg5 harg5 arg6 harg6 arg7 harg7 arg8 harg8 arg9 harg9 hc0 hc1 x0 x1 x2 x3 xs0 xs1, sout0_C_0 c i arg3 harg3 arg4 harg4 arg5 harg5 arg6 harg6 arg7 harg7 arg8 harg8 arg9 harg9 hc0 hc1 x0 x1 x2 x3 xs0 xs1, sout0_C_1 c i arg3 harg3 arg4 harg4 arg5 harg5 arg6 harg6 arg7 harg7 arg8 harg8 arg9 harg9 hc0 hc1 x0 x1 x2 x3 xs0 xs1)
end
end

def at0_A (c : Dev nD) (t : Fin cfg0.N) (h0 : t.val % 8 = 0) (h1 : ¬t.val % 8 = 7) : Vec F S1x512x256 .f32 × Vec F S512x256 .f32 × Vec F S1x512 .f32 :=
  outs0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
def at0_B (c : Dev nD) (t : Fin cfg0.N) (h0 : ¬t.val % 8 = 0) (h1 : ¬t.val % 8 = 7) (p : Vec F S1x512x256 .f32 × Vec F S512x256 .f32 × Vec F S1x512 .f32) : Vec F S1x512x256 .f32 × Vec F S512x256 .f32 × Vec F S1x512 .f32 :=
  outs0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.2.1 p.2.2
def at0_C (c : Dev nD) (t : Fin cfg0.N) (h0 : ¬t.val % 8 = 0) (h1 : t.val % 8 = 7) (p : Vec F S1x512x256 .f32 × Vec F S512x256 .f32 × Vec F S1x512 .f32) : Vec F S1x512x256 .f32 × Vec F S512x256 .f32 × Vec F S1x512 .f32 :=
  outs0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.2.1 p.2.2

/-- The output block and the two accumulators after position n of the grid: the position modulo 8 is the step of the reduction; step 0 starts the sums anew, step 7 also stores the hyperedge block. -/
def outsAt0 (c : Dev nD) : (n : ℕ) → n < cfg0.N → Vec F S1x512x256 .f32 × Vec F S512x256 .f32 × Vec F S1x512 .f32
  | 0, hn => at0_A V c ⟨0, hn⟩ (Nat.zero_mod _) (by dsimp only; omega)
  | n + 1, hn =>
    if h0 : (n + 1) % 8 = 0 then at0_A V c ⟨n + 1, hn⟩ h0 (by dsimp only; omega)
    else if h1 : (n + 1) % 8 = 7 then at0_C V c ⟨n + 1, hn⟩ h0 h1 (outsAt0 c n (Nat.lt_of_succ_lt hn))
    else at0_B V c ⟨n + 1, hn⟩ h0 h1 (outsAt0 c n (Nat.lt_of_succ_lt hn))

abbrev prev0 (c : Dev nD) (t : Fin cfg0.N) := outsAt0 V c (t.val - 1) (Nat.lt_of_le_of_lt (Nat.sub_le _ _) t.isLt)

theorem outsAt0_A (c : Dev nD) (t : Fin cfg0.N) (h0 : t.val % 8 = 0) (h1 : ¬t.val % 8 = 7) :
    outsAt0 V c t.val t.isLt = at0_A V c t h0 h1 := by
  obtain ⟨n, hn⟩ := t
  cases n with
  | zero => exact rfl
  | succ n => exact (dif_pos h0).trans rfl
theorem outsAt0_B (c : Dev nD) (t : Fin cfg0.N) (h0 : ¬t.val % 8 = 0) (h1 : ¬t.val % 8 = 7) :
    outsAt0 V c t.val t.isLt = at0_B V c t h0 h1 (prev0 V c t) := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 8 = 0) (h1 : t.val % 8 = 7) :
    outsAt0 V c t.val t.isLt = at0_C V c t h0 h1 (prev0 V c t) := by
  obtain ⟨n, hn⟩ := t
  cases n with
  | zero => exact absurd (Nat.zero_mod _) h0
  | succ n => exact (dif_neg h0).trans ((dif_pos h1).trans rfl)

/-- What one position hands the next: the two accumulators at the contents the position before left (at anything before the first). -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

theorem Phi_out0 (c : Dev nD) (t : Fin (cfg0.N + 1)) : (dat0 V c).Φ t ⊢ Pipeline.ΦA spec0 c := by
  rw [show (dat0 V c).Φ t = PhiS0 V c t.val (Nat.le_of_lt_succ t.isLt) from rfl]
  by_cases ht : t.val = 0
  · rw [PhiS0_zero V c _ _ ht]; try exact Idealize.SL.BI.Entails.refl _
  rw [PhiS0_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in

/-- At every position the body runs from the handed-on accumulators and the position's input blocks and leaves this position's contents, the input blocks as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 512 := lt_of_lt_of_eq t.isLt (show cfg0.N = 512 from N_0)
  rw [show (dat0 V c).leavesExact 0 t = owns (c : Thread nD τ) (ms0_0 t) fullShare ((dat0 V c).after 0 t) from by
    unfold Dat.leavesExact; rw [liveAt0_in 0 (by decide) t], after0_0]
  rw [show (dat0 V c).leavesExact 1 t = owns (c : Thread nD τ) (ms0_1 t) fullShare ((dat0 V c).after 1 t) from by
    unfold Dat.leavesExact; rw [liveAt0_in 1 (by decide) t], after0_1]
  rw [show (dat0 V c).leavesExact 2 t = owns (c : Thread nD τ) (ms0_2 t) fullShare ((dat0 V c).after 2 t) from by
    unfold Dat.leavesExact; rw [liveAt0_in 2 (by decide) t], after0_2]
  rw [show (dat0 V c).leavesExact 3 t = owns (c : Thread nD τ) (ms0_3 t) fullShare ((dat0 V c).after 3 t) from by
    unfold Dat.leavesExact; rw [liveAt0_in 3 (by decide) t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold at0_A outs0_A sout0_A_0 sout0_A_1; (try dsimp only)
    have hΦ := Phi_out0 V c t.castSucc; rw [PhiA0_eq] at hΦ
    iintro ⟨HΦ, Ho, ⟨%d0, H0⟩, ⟨%d1, H1⟩, ⟨%d2, H2⟩, ⟨%d3, H3⟩, ⟨%d4, H4⟩⟩
    ihave HΦ := hΦ $$ HΦ
    icases HΦ with ⟨⟨⟨HS0, HS1⟩, Hrest⟩, Hg⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val % 8 = 7
    · have hz : t.val ≠ 0 := by omega
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold at0_C outs0_C out0_C_4 sout0_C_0 sout0_C_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _)
    · have hz : t.val ≠ 0 := by omega
      rw [Dat.leavesExact_idle (dat0 V c) 4 t (idleAt0_4 t (fun h => h1 ((hcond0_1 t).mp h))) (noFlush0_4 t (fun h => h1 ((hcond0_1 t).mp h)))]
      rw [outsAt0_B V c t h0 h1]
      unfold at0_B outs0_B sout0_B_0 sout0_B_1; (try dsimp only)
      rw [PhiS0_castSucc V c t, PhiS0_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := Phi_out0 V c _

end Cert.KernelIdeal.Hand

end
-- ==== Proof.KI.R1A.lean ====
import proofs.«176735_j32615981646424_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : cond1_0 i) (hc1 : ¬cond1_1 i)
    (x0 : Vec F S1x512x256 .f32) (x1 : Vec F S1x512x256 .f32) (x2 : Vec F S1x512x256 .f32) :
    Σ' (L3 : List (View.Piece (Elt F) S1x512x256 .f32)) (LS0 : List (View.Piece (Elt F) S512x256 .f32)), { LS1 : List (View.Piece (Elt F) S512x1 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨[], ?_, ?_, fun xi3 E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%fo, %hfo, HO⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    isplitl [HS0]
    · iexists _; iexact HS0
    iexists _; iexact HS1

end Cert.KernelIdeal.Hand

end
-- ==== Proof.KI.R1B.lean ====
import proofs.«176735_j32615981646424_1_alg».proof.Proof.KI.R1A

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : ¬cond1_0 i) (hc1 : ¬cond1_1 i)
    (x0 : Vec F S1x512x256 .f32) (x1 : Vec F S1x512x256 .f32) (x2 : Vec F S1x512x256 .f32) (xs0 : Vec F S512x256 .f32) (xs1 : Vec F S512x1 .f32) :
    Σ' (L3 : List (View.Piece (Elt F) S1x512x256 .f32)) (LS0 : List (View.Piece (Elt F) S512x256 .f32)), { LS1 : List (View.Piece (Elt F) S512x1 .f32) //
      ∀ (xi3 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨[], ?_, ?_, fun xi3 E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%fo, %hfo, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfo; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; isplitr; · ipureintro; exact harg6.read_unread _
      iexact HO
    isplitl [HS0]
    · iexists _; iexact HS0
    iexists _; iexact HS1

end Cert.KernelIdeal.Hand

end
-- ==== Proof.KI.R1C.lean ====
import proofs.«176735_j32615981646424_1_alg».proof.Proof.KI.R1B

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_C (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole) (hc0 : ¬cond1_0 i) (hc1 : cond1_1 i)
    (x0 : Vec F S1x512x256 .f32) (x1 : Vec F S1x512x256 .f32) (x2 : Vec F S1x512x256 .f32) (xs0 : Vec F S512x256 .f32) (xs1 : Vec F S512x1 .f32) :
    Σ' (L3 : List (View.Piece (Elt F) S1x512x256 .f32)) (LS0 : List (View.Piece (Elt F) S512x256 .f32)), { LS1 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__k2_body i arg3 harg3 arg4 harg4 arg5 harg5 arg6 harg6 arg7 harg7 arg8 harg8) K } := by
  refine ⟨?_, ?_, ?_, fun E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%dO, %fo, -, HO⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HO]
    · iexists _; iexact HO
    isplitl [HS0]
    · iexists _; iexact HS0
    iexists _; iexact HS1

end Cert.KernelIdeal.Hand

end
-- ==== Proof.KI.R1Data.lean ====
import proofs.«176735_j32615981646424_1_alg».proof.Proof.KI.R1C

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idle1_3 : Vec F S1x512x256 .f32 := VO1_3.read (Elt F) VO1_3.junk

section
variable (c : Dev nD) (i : grid1.Coords) (arg3 : Memref sig .tc .vmem S1x512x256 .f32) (harg3 : arg3.IsWhole) (arg4 : Memref sig .tc .vmem S1x512x256 .f32) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x256 .f32) (harg7 : arg7.IsWhole) (arg8 : Memref sig .tc .vmem S512x1 .f32) (harg8 : arg8.IsWhole)
section
variable (hc0 : cond1_0 i) (hc1 : ¬cond1_1 i) (x0 : Vec F S1x512x256 .f32) (x1 : Vec F S1x512x256 .f32) (x2 : Vec F S1x512x256 .f32)
theorem scover1_A_0 (y : S512x256.Idx) :
    ∃ pc ∈ (kernelRun1_A c i arg3 harg3 arg4 harg4 arg5 harg5 arg6 harg6 arg7 harg7 arg8 harg8 hc0 hc1 x0 x1 x2).2.1, y ∈ pc.1.set :=
  View.cover_of_tiledL _ S512x256.size (by sl_kernel_rfl) y

def sout1_A_0 : Vec F S512x256 .f32 :=
  VS1_0.read (Elt F) (VS1_0.writes (Elt F) VS1_0.junk (kernelRun1_A c i arg3 harg3 arg4 harg4 arg5 harg5 arg6 harg6 arg7 harg7 arg8 harg8 hc0 hc1 x0 x1 x2).2.1)

theorem scover1_A_1 (y : S512x1.Idx) :
    ∃ pc ∈ (kernelRun1_A c i arg3 harg3 arg4 harg4 arg5 harg5 arg6 harg6 arg7 harg7 arg8 harg8 hc0 hc1 x0 x1 x2).2.2.1, y ∈ pc.1.set :=
  View.cover_of_tiledL _ S512x1.size (by sl_kernel_rfl) y

def sout1_A_1 : Vec F S512x1 .f32 :=
  VS1_1.read (Elt F) (VS1_1.writes (Elt F) VS1_1.junk (kernelRun1_A c i arg3 harg3 arg4 harg4 arg5 harg5 arg6 harg6 arg7 harg7 arg8 harg8 hc0 hc1 x0 x1 x2).2.2.1)
def outs1_A : Vec F S1x512x256 .f32 × Vec F S512x256 .f32 × Vec F S512x1 .f32 :=
  (idle1_3, sout1_A_0 c i arg3 harg3 arg4 harg4 arg5 harg5 arg6 harg6 arg7 harg7 arg8 harg8 hc0 hc1 x0 x1 x2, sout1_A_1 c i arg3 harg3 arg4 harg4 arg5 harg5 arg6 harg6 arg7 harg7 arg8 harg8 hc0 hc1 x0 x1 x2)
end

section
variable (hc0 : ¬cond1_0 i) (hc1 : ¬cond1_1 i) (x0 : Vec F S1x512x256 .f32) (x1 : Vec F S1x512x256 .f32) (x2 : Vec F S1x512x256 .f32) (xs0 : Vec F S512x256 .f32) (xs1 : Vec F S512x1 .f32)
theorem scover1_B_0 (y : S512x256.Idx) :
    ∃ pc ∈ (kernelRun1_B c i arg3 harg3 arg4 harg4 arg5 harg5 arg6 harg6 arg7 harg7 arg8 harg8 hc0 hc1 x0 x1 x2 xs0 xs1).2.1, y ∈ pc.1.set :=
  View.cover_of_tiledL _ S512x256.size (by sl_kernel_rfl) y

def sout1_B_0 : Vec F S512x256 .f32 :=
  VS1_0.read (Elt F) (VS1_0.writes (Elt F) VS1_0.junk (kernelRun1_B c i arg3 harg3 arg4 harg4 arg5 harg5 arg6 harg6 arg7 harg7 arg8 harg8 hc0 hc1 x0 x1 x2 xs0 xs1).2.1)

theorem scover1_B_1 (y : S512x1.Idx) :
    ∃ pc ∈ (kernelRun1_B c i arg3 harg3 arg4 harg4 arg5 harg5 arg6 harg6 arg7 harg7 arg8 harg8 hc0 hc1 x0 x1 x2 xs0 xs1).2.2.1, y ∈ pc.1.set :=
  View.cover_of_tiledL _ S512x1.size (by sl_kernel_rfl) y

def sout1_B_1 : Vec F S512x1 .f32 :=
  VS1_1.read (Elt F) (VS1_1.writes (Elt F) VS1_1.junk (kernelRun1_B c i arg3 harg3 arg4 harg4 arg5 harg5 arg6 harg6 arg7 harg7 arg8 harg8 hc0 hc1 x0 x1 x2 xs0 xs1).2.2.1)
def outs1_B : Vec F S1x512x256 .f32 × Vec F S512x256 .f32 × Vec F S512x1 .f32 :=
  (idle1_3, sout1_B_0 c i arg3 harg3 arg4 harg4 arg5 harg5 arg6 harg6 arg7 harg7 arg8 harg8 hc0 hc1 x0 x1 x2 xs0 xs1, sout1_B_1 c i arg3 harg3 arg4 harg4 arg5 harg5 arg6 harg6 arg7 harg7 arg8 harg8 hc0 hc1 x0 x1 x2 xs0 xs1)
end

section
variable (hc0 : ¬cond1_0 i) (hc1 : cond1_1 i) (x0 : Vec F S1x512x256 .f32) (x1 : Vec F S1x512x256 .f32) (x2 : Vec F S1x512x256 .f32) (xs0 : Vec F S512x256 .f32) (xs1 : Vec F S512x1 .f32)
theorem scover1_C_0 (y : S512x256.Idx) :
    ∃ pc ∈ (kernelRun1_C c i arg3 harg3 arg4 harg4 arg5 harg5 arg6 harg6 arg7 harg7 arg8 harg8 hc0 hc1 x0 x1 x2 xs0 xs1).2.1, y ∈ pc.1.set :=
  View.cover_of_tiledL _ S512x256.size (by sl_kernel_rfl) y

def sout1_C_0 : Vec F S512x256 .f32 :=
  VS1_0.read (Elt F) (VS1_0.writes (Elt F) VS1_0.junk (kernelRun1_C c i arg3 harg3 arg4 harg4 arg5 harg5 arg6 harg6 arg7 harg7 arg8 harg8 hc0 hc1 x0 x1 x2 xs0 xs1).2.1)

theorem scover1_C_1 (y : S512x1.Idx) :
    ∃ pc ∈ (kernelRun1_C c i arg3 harg3 arg4 harg4 arg5 harg5 arg6 harg6 arg7 harg7 arg8 harg8 hc0 hc1 x0 x1 x2 xs0 xs1).2.2.1, y ∈ pc.1.set :=
  View.cover_of_tiledL _ S512x1.size (by sl_kernel_rfl) y

def sout1_C_1 : Vec F S512x1 .f32 :=
  VS1_1.read (Elt F) (VS1_1.writes (Elt F) VS1_1.junk (kernelRun1_C c i arg3 harg3 arg4 harg4 arg5 harg5 arg6 harg6 arg7 harg7 arg8 harg8 hc0 hc1 x0 x1 x2 xs0 xs1).2.2.1)

theorem cover1_C_3 (y : S1x512x256.Idx) :
    ∃ pc ∈ (kernelRun1_C c i arg3 harg3 arg4 harg4 arg5 harg5 arg6 harg6 arg7 harg7 arg8 harg8 hc0 hc1 x0 x1 x2 xs0 xs1).1, y ∈ pc.1.set :=
  View.cover_of_tiledL _ S1x512x256.size (by sl_kernel_rfl) y

def out1_C_3 : Vec F S1x512x256 .f32 :=
  VO1_3.read (Elt F) (VO1_3.writes (Elt F) VO1_3.junk (kernelRun1_C c i arg3 harg3 arg4 harg4 arg5 harg5 arg6 harg6 arg7 harg7 arg8 harg8 hc0 hc1 x0 x1 x2 xs0 xs1).1)
def outs1_C : Vec F S1x512x256 .f32 × Vec F S512x256 .f32 × Vec F S512x1 .f32 :=
  (out1_C_3 c i arg3 harg3 arg4 harg4 arg5 harg5 arg6 harg6 arg7 harg7 arg8 harg8 hc0 hc1 x0 x1 x2 xs0 xs1, sout1_C_0 c i arg3 harg3 arg4 harg4 arg5 harg5 arg6 harg6 arg7 harg7 arg8 harg8 hc0 hc1 x0 x1 x2 xs0 xs1, sout1_C_1 c i arg3 harg3 arg4 harg4 arg5 harg5 arg6 harg6 arg7 harg7 arg8 harg8 hc0 hc1 x0 x1 x2 xs0 xs1)
end
end

def at1_A (c : Dev nD) (t : Fin cfg1.N) (h0 : t.val % 8 = 0) (h1 : ¬t.val % 8 = 7) : Vec F S1x512x256 .f32 × Vec F S512x256 .f32 × Vec F S512x1 .f32 :=
  outs1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t) (iblk1 V c 2 t)
def at1_B (c : Dev nD) (t : Fin cfg1.N) (h0 : ¬t.val % 8 = 0) (h1 : ¬t.val % 8 = 7) (p : Vec F S1x512x256 .f32 × Vec F S512x256 .f32 × Vec F S512x1 .f32) : Vec F S1x512x256 .f32 × Vec F S512x256 .f32 × Vec F S512x1 .f32 :=
  outs1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) p.2.1 p.2.2
def at1_C (c : Dev nD) (t : Fin cfg1.N) (h0 : ¬t.val % 8 = 0) (h1 : t.val % 8 = 7) (p : Vec F S1x512x256 .f32 × Vec F S512x256 .f32 × Vec F S512x1 .f32) : Vec F S1x512x256 .f32 × Vec F S512x256 .f32 × Vec F S512x1 .f32 :=
  outs1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) p.2.1 p.2.2

/-- The output block and the two accumulators after position n of the grid: the position modulo 8 is the step of the reduction; step 0 starts the sums anew, step 7 also stores the node block. -/
def outsAt1 (c : Dev nD) : (n : ℕ) → n < cfg1.N → Vec F S1x512x256 .f32 × Vec F S512x256 .f32 × Vec F S512x1 .f32
  | 0, hn => at1_A V c ⟨0, hn⟩ (Nat.zero_mod _) (by dsimp only; omega)
  | n + 1, hn =>
    if h0 : (n + 1) % 8 = 0 then at1_A V c ⟨n + 1, hn⟩ h0 (by dsimp only; omega)
    else if h1 : (n + 1) % 8 = 7 then at1_C V c ⟨n + 1, hn⟩ h0 h1 (outsAt1 c n (Nat.lt_of_succ_lt hn))
    else at1_B V c ⟨n + 1, hn⟩ h0 h1 (outsAt1 c n (Nat.lt_of_succ_lt hn))

abbrev prev1 (c : Dev nD) (t : Fin cfg1.N) := outsAt1 V c (t.val - 1) (Nat.lt_of_le_of_lt (Nat.sub_le _ _) t.isLt)

theorem outsAt1_A (c : Dev nD) (t : Fin cfg1.N) (h0 : t.val % 8 = 0) (h1 : ¬t.val % 8 = 7) :
    outsAt1 V c t.val t.isLt = at1_A V c t h0 h1 := by
  obtain ⟨n, hn⟩ := t
  cases n with
  | zero => exact rfl
  | succ n => exact (dif_pos h0).trans rfl
theorem outsAt1_B (c : Dev nD) (t : Fin cfg1.N) (h0 : ¬t.val % 8 = 0) (h1 : ¬t.val % 8 = 7) :
    outsAt1 V c t.val t.isLt = at1_B V c t h0 h1 (prev1 V c t) := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 8 = 0) (h1 : t.val % 8 = 7) :
    outsAt1 V c t.val t.isLt = at1_C V c t h0 h1 (prev1 V c t) := by
  obtain ⟨n, hn⟩ := t
  cases n with
  | zero => exact absurd (Nat.zero_mod _) h0
  | succ n => exact (dif_neg h0).trans ((dif_pos h1).trans rfl)

/-- What one position hands the next: the two accumulators at the contents the position before left (at anything before the first). -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  by_cases ht : t.val = 0
  · rw [PhiS1_zero V c _ _ ht]; try exact Idealize.SL.BI.Entails.refl _
  rw [PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

/-- At every position the body runs from the handed-on accumulators and the position's input blocks and leaves this position's contents, the input blocks as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_in 0 (by decide) t], after1_0]
  rw [show (dat1 V c).leavesExact 1 t = owns (c : Thread nD τ) (ms1_1 t) fullShare ((dat1 V c).after 1 t) from by
    unfold Dat.leavesExact; rw [liveAt1_in 1 (by decide) t], after1_1]
  rw [show (dat1 V c).leavesExact 2 t = owns (c : Thread nD τ) (ms1_2 t) fullShare ((dat1 V c).after 2 t) from by
    unfold Dat.leavesExact; rw [liveAt1_in 2 (by decide) t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold at1_A outs1_A sout1_A_0 sout1_A_1; (try dsimp only)
    have hΦ := Phi_out1 V c t.castSucc; rw [PhiA1_eq] at hΦ
    iintro ⟨HΦ, Ho, ⟨%d0, H0⟩, ⟨%d1, H1⟩, ⟨%d2, H2⟩, ⟨%d3, H3⟩⟩
    ihave HΦ := hΦ $$ HΦ
    icases HΦ with ⟨⟨⟨HS0, HS1⟩, Hrest⟩, Hg⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    iexists _; iexact H3
  · by_cases h1 : t.val % 8 = 7
    · have hz : t.val ≠ 0 := by omega
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold at1_C outs1_C out1_C_3 sout1_C_0 sout1_C_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    · have hz : t.val ≠ 0 := by omega
      rw [Dat.leavesExact_idle (dat1 V c) 3 t (idleAt1_3 t (fun h => h1 ((hcond1_1 t).mp h))) (noFlush1_3 t (fun h => h1 ((hcond1_1 t).mp h)))]
      rw [outsAt1_B V c t h0 h1]
      unfold at1_B outs1_B sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := Phi_out1 V c _

end Cert.KernelIdeal.Hand

end
-- ==== Proof.KI.R2.lean ====
import proofs.«176735_j32615981646424_1_alg».proof.Proof.KI.Shared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun2 (c : Dev nD) (i : grid2.Coords) (arg2 : Memref sig .tc .vmem S1x1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S1x1024x256 .f32) (harg9 : arg9.IsWhole)
    (x0 : Vec F S1x1024x256 .f32) (x1 : Vec F S1024x256 .f32) (x2 : Vec F S1024 .f32) (x3 : Vec F S256x1024 .f32) (x4 : Vec F S256 .f32) (x5 : Vec F S256 .f32) (x6 : Vec F S256 .f32) :
    { L7 : List (View.Piece (Elt F) S1x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc2__k3_body i arg2 harg2 arg3 harg3 arg4 harg4 arg5 harg5 arg6 harg6 arg7 harg7 arg8 harg8 arg9 harg9) K } := by
  refine ⟨?_, fun E K => ?run⟩
  case run =>
    simp only [cc2__k3_body_eq_skeleton]; unfold cc2__k3_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HO

end Cert.KernelIdeal.Hand

end
-- ==== Proof.KI.R2Data.lean ====
import proofs.«176735_j32615981646424_1_alg».proof.Proof.KI.R2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (arg2 : Memref sig .tc .vmem S1x1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S1x1024x256 .f32) (harg9 : arg9.IsWhole)
section
variable (x0 : Vec F S1x1024x256 .f32) (x1 : Vec F S1024x256 .f32) (x2 : Vec F S1024 .f32) (x3 : Vec F S256x1024 .f32) (x4 : Vec F S256 .f32) (x5 : Vec F S256 .f32) (x6 : Vec F S256 .f32)
theorem cover2_7 (y : S1x1024x256.Idx) :
    ∃ pc ∈ (kernelRun2 c i arg2 harg2 arg3 harg3 arg4 harg4 arg5 harg5 arg6 harg6 arg7 harg7 arg8 harg8 arg9 harg9 x0 x1 x2 x3 x4 x5 x6).1, y ∈ pc.1.set :=
  View.cover_of_tiledL _ S1x1024x256.size (by sl_kernel_rfl) y

def out2_7 : Vec F S1x1024x256 .f32 :=
  VO2_7.read (Elt F) (VO2_7.writes (Elt F) VO2_7.junk (kernelRun2 c i arg2 harg2 arg3 harg3 arg4 harg4 arg5 harg5 arg6 harg6 arg7 harg7 arg8 harg8 arg9 harg9 x0 x1 x2 x3 x4 x5 x6).1)
end
end

abbrev outAt2 (c : Dev nD) (t : Fin cfg2.N) : Vec F S1x1024x256 .f32 :=
  out2_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) (iblk2 V c 5 t) (iblk2 V c 6 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in

/-- At every position the body runs from the position's input blocks and leaves its result in the output block, the input blocks as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  rw [show (dat2 V c).leavesExact 3 t = owns (c : Thread nD τ) (ms2_3 t) fullShare ((dat2 V c).after 3 t) from by
    unfold Dat.leavesExact; rw [liveAt2_in 3 (by decide) t], after2_3]
  rw [show (dat2 V c).leavesExact 4 t = owns (c : Thread nD τ) (ms2_4 t) fullShare ((dat2 V c).after 4 t) from by
    unfold Dat.leavesExact; rw [liveAt2_in 4 (by decide) t], after2_4]
  rw [show (dat2 V c).leavesExact 5 t = owns (c : Thread nD τ) (ms2_5 t) fullShare ((dat2 V c).after 5 t) from by
    unfold Dat.leavesExact; rw [liveAt2_in 5 (by decide) t], after2_5]
  rw [show (dat2 V c).leavesExact 6 t = owns (c : Thread nD τ) (ms2_6 t) fullShare ((dat2 V c).after 6 t) from by
    unfold Dat.leavesExact; rw [liveAt2_in 6 (by decide) t], after2_6]
  rw [show (dat2 V c).leavesExact 7 t = owns (c : Thread nD τ) (ms2_7 t) fullShare ((dat2 V c).after 7 t) from by
    unfold Dat.leavesExact; rw [liveAt2_7 t], after2_7]
  unfold outAt2 out2_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2 c (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover2_7 c _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.KernelIdeal.Hand

end
-- ==== Proof.KI.Segs.lean ====
import proofs.«176735_j32615981646424_1_alg».proof.Proof.KI.R0Data
import proofs.«176735_j32615981646424_1_alg».proof.Proof.KI.R1Data
import proofs.«176735_j32615981646424_1_alg».proof.Proof.KI.R2Data
import proofs.«176735_j32615981646424_1_alg».proof.Proof.Gen.KernelIdeal.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

section
variable {cfg : Cfg sig Λ₀} (d : (c : Dev nD) → Dat τ (Elt F) Unit ℕ (UR sig nD τ) ℕ cfg c) (o : Fin cfg.W)
  (V : Dev nD → Valuation τ sig (Elt F)) (c : Dev nD)

def nxt : Valuation τ sig (Elt F) := Function.update (V c) (Pipeline.arrRef cfg.spec o) ((d c).arrAt o cfg.N)

theorem nxt_self : nxt d o V c (Pipeline.arrRef cfg.spec o) = (d c).arrAt o cfg.N := Function.update_self _ _ _
theorem nxt_of_ne (b : Ref sig .tc) (h : b ≠ Pipeline.arrRef cfg.spec o) : nxt d o V c b = V c b :=
  Function.update_of_ne (StableHlo.devRef_ne_of_ne h) _ _
end

abbrev Wa (c : Dev nD) : Valuation τ sig (Elt F) := fun b => m (c, b)
def Ua (c : Dev nD) (b : Ref sig .tc) : Buf (Elt F) ((c : Thread nD τ).loc b) := m ((c : Thread nD τ).loc b)
def Wb : Dev nD → Valuation τ sig (Elt F) := nxt (dat0 (Ua m)) 4 (Wa m)
def Ub (c : Dev nD) (b : Ref sig .tc) : Buf (Elt F) ((c : Thread nD τ).loc b) := Wb m c b
def Wc : Dev nD → Valuation τ sig (Elt F) := nxt (dat1 (Ub m)) 3 (Wb m)
def Uc (c : Dev nD) (b : Ref sig .tc) : Buf (Elt F) ((c : Thread nD τ).loc b) := Wc m c b
def Wd : Dev nD → Valuation τ sig (Elt F) := nxt (dat2 (Uc m)) 7 (Wc m)

theorem Ub_v0 (c : Dev nD) : Ub m c main_v0 = (dat0 (Ua m) c).arrAt 4 cfg0.N := nxt_self (dat0 (Ua m)) 4 (Wa m) c
theorem Ub_of_ne (c : Dev nD) (b : Ref sig .tc) (h : b ≠ main_v0) : Ub m c b = Ua m c b := nxt_of_ne _ _ _ c b h
theorem Uc_v1 (c : Dev nD) : Uc m c main_v1 = (dat1 (Ub m) c).arrAt 3 cfg1.N := nxt_self (dat1 (Ub m)) 3 (Wb m) c
theorem Uc_of_ne (c : Dev nD) (b : Ref sig .tc) (h : b ≠ main_v1) : Uc m c b = Ub m c b := nxt_of_ne _ _ _ c b h

def pdats : (p : Fin 3) → (c : Dev nD) → Dat τ (Elt F) Unit ℕ (UR sig nD τ) ℕ (Pipeline.pin (pcfgs (F := F)) adm p) c
  | ⟨0, _⟩ => dat0 (Ua m)
  | ⟨1, _⟩ => dat1 (Ub m)
  | ⟨2, _⟩ => dat2 (Uc m)
abbrev Lz : GSem nD τ sig → Finset Unit := fun _ => ∅
abbrev lz : GSem nD τ sig → Unit → ℕ := fun _ _ => 0

abbrev Ts (V : Dev nD → Valuation τ sig (Elt F)) (c : Dev nD) : sProp 𝕄 :=
  iprop(iprop(StableHlo.held (c : Thread nD τ) (Pipeline.ucRefs τ sig) (V c) ∗ ∃ r, prngReg c r) ∗ ∃ W, owes (c : Thread nD τ) (0 : CellTallies nD τ sig Unit) W)

section
variable {p : Fin 3} (lf : Pipeline.LaunchFacts (nD := nD) (τ := τ) cfgs p) (o : Fin (cfgs p).W)
  (V : Dev nD → Valuation τ sig (Elt F))

def regOf (hb : ∀ c, BodyObligation (pdats m p c) defs₀ Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hio : ∀ w, w ≠ o → ((cfgs p).win w).isOut = false)
    (hq : ∀ c w, (pdats m p c).q w = fullShare)
    (hA : ∀ c w, (pdats m p c).A w = V c (Pipeline.arrRef (cfgs p).spec w))
    (how : ∀ c t, (pdats m p c).owed t = 0)
    (hrec : ∀ c x, x ∈ (pdats m p c).recorded 0) :
    Pipeline.RegionSeg (pcfgs (F := F)) adm (pdats m) () defs₀ Variants.none Lz lz p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ Lz lz p how
  pre := Ts V
  post := Ts (nxt (pdats m p) o V)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (pcfgs (F := F)) adm (pdats m) lf.win lf.arr_whole c
      ((pdats m p c).share_full (hq c)) (fun b => V c b) (hA c)
    rw [Pipeline.unscopedBufs_held c (V c)] at hsplit
    iintro ⟨⟨⟨Hbufs, Hreg⟩, Howes⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin; rw [how c]
      icases Howes with ⟨%W, Howes⟩; iexists W; isplitr; · ipureintro; exact fun x _ => Or.inl (hrec c x)
      iexact Howes
    isplitl [Hreg]; · iexact Hreg
    iexact Hoff
  hin c := by
    refine .trans ?_ (hi c)
    unfold Pipeline.ΦA
    iintro ⟨Hreg, -, Hsc⟩
    isplitl [Hsc] <;> iassumption
  hout c := by
    rw [Pipeline.ownSems0_none]
    refine (ho c).trans ?_
    unfold Pipeline.ΦA
    iintro ⟨Hsc, Hreg⟩
    isplitl [Hreg]; · iexact Hreg
    isplitr; · iempintro
    iexact Hsc
  hexit c := by
    have hjoin := Pipeline.unscopedBufs_of_arrays (pcfgs (F := F)) adm lf.win lf.arr_whole c (pdats m) ((pdats m p c).share_full (hq c))
      (fun b => V c b) (fun b => nxt (pdats m p) o V c b) ((pdats m p c).arrAt · (cfgs p).N)
      (fun w => by
        by_cases h : w = o
        · subst h; exact (nxt_self ..).symm
        · exact ((pdats m p c).arrAt_in w (hio w h) _).trans ((hA c w).trans (nxt_of_ne _ o V c _ (lf.win.arr_inj.ne h)).symm))
      fun b hb => nxt_of_ne _ o V c b fun e => hb (Finset.mem_image.mpr ⟨o, Finset.mem_univ _, e.symm⟩)
    rw [Pipeline.unscopedBufs_held c (nxt (pdats m p) o V c)] at hjoin
    iintro ⟨Harr, Howes, Hreg, Hoff⟩
    imodintro
    isplitl [Harr Hoff Hreg]
    · isplitl [Harr Hoff]
      · iapply hjoin; isplitl [Harr] <;> iassumption
      iexact Hreg
    unfold Pipeline.Dat.owesAt Pipeline.owesWithin; rw [how c]
    icases Howes with ⟨%W, -, Howes⟩; iexists W; iexact Howes
end

abbrev segL : List (Pipeline.Seg (pcfgs (F := F)) adm (pdats m) () defs₀ Variants.none Lz lz) :=
  [.region (regOf m launch0 4 (Wa m) (body_obligation0 _) (hin0 _) (hout0 _) (by decide)
      (fun _ _ => rfl) (fun _ _ => rfl) (fun _ _ => rfl) fun _ _ => trivial),
   .region (regOf m launch1 3 (Wb m) (body_obligation1 _) (hin1 _) (hout1 _) (by decide)
      (fun _ _ => rfl) (fun _ _ => rfl) (fun _ _ => rfl) fun _ _ => trivial),
   .region (regOf m launch2 7 (Wc m) (body_obligation2 _) (hin2 _) (hout2 _) (by decide)
      (fun _ _ => rfl) (fun _ _ => rfl) (fun _ _ => rfl) fun _ _ => trivial)]

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v2) = (dat2 (Uc m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ Variants.none Lz lz m ρ main
    (fun _ => segL m) (fun c Q => by rewrite [main_segs adm (pdats m) () Variants.none Lz lz _ _ _ c]; exact .rfl)
    (fun c => by simp only [segL, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_) (T₀ := Ts (Wa m))
    (Tₙ := fun c => iprop(StableHlo.held (c : Thread nD τ) (Pipeline.ucRefs τ sig) (Wd m c) ∗ ∃ r, prngReg c r))
    (hch := fun c => ⟨.rfl, .rfl, .rfl, .rfl⟩)
    (hinit := ?_)
    (QY := fun c s => ∀ b ∈ Pipeline.ucRefs τ sig, s.mem ((c : Thread nD τ).1, b) = Wd m c b)
    (hfin := fun c s' => ?_)
    (hQ := fun s h c => ?_)
  · iintro Hu; imodintro
    isplitl [Hu]
    · iapply (show (ownU _ : sProp 𝕄) ⊢ BI.own (emb₁ _) from .rfl)
      iexact Hu
    iapply (show (BI.emp : sProp 𝕄) ⊢ bigSep Finset.univ (fun _ : Dev nD => (BI.emp : sProp 𝕄)) from by rw [BI.bigSep_emp_const])
    iempintro
  · refine Pipeline.initEach Lz lz fun c => ?_
    rw [show unscopedBufs c (fun b => m ((c : Thread nD τ).loc b)) = _ from Pipeline.unscopedBufs_held c (Wa m c)]
    iintro ⟨⟨Hbufs, -, Howes, -, Hreg, -⟩, -⟩
    imodintro
    isplitr [Howes]
    · isplitl [Hbufs]; · iexact Hbufs
      iexists _; iexact Hreg
    iexists ∅; iexact Howes
  · iintro ⟨⟨Hbufs, -⟩, HSI⟩
    unfold StableHlo.held
    imodintro
    iapply (pointsTo_read_all (Pipeline.ucRefs τ sig) (fun b => ((c : Thread nD τ).1, b)) (Wd m c) s')
    isplitl [Hbufs] <;> iassumption
  · have r (b : Ref sig .tc) (hb : ¬ (Proc.devRef .tc b : DevRef τ sig).isScoped) :
        s.mem ((c : Thread nD τ).loc b) = Wd m c b := h c _ (Finset.mem_filter.mpr ⟨StableHlo.devRef_mem_tcRefs b, hb⟩)
    refine ⟨(r main_v2 (by decide)).trans (nxt_self (dat2 (Uc m)) 7 _ c), ?_, ?_, ?_, ?_, ?_, ?_, ?_, ?_, ?_, ?_⟩ <;>
      exact (r _ (by decide)).trans ((nxt_of_ne (dat2 (Uc m)) 7 _ c _ (by decide)).trans ((Uc_of_ne m c _ (by decide)).trans (Ub_of_ne m c _ (by decide))))

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

abbrev A3 : Type := Fin 8 → Fin 4096 → Fin 256 → EReal

def zero : EReal := Ideal.ofBits .f32 0x00000000#32

def one : EReal := Ideal.ofBits .f32 0x3F800000#32

def two : EReal := Ideal.ofBits .f32 0x40000000#32

def thrSq : EReal := Ideal.ofBits .f32 0x44044000#32

def thr : EReal := Ideal.ofBits .f32 0x41B80000#32

def n256 : EReal := Ideal.ofBits .f32 0x43800000#32

def eps : EReal := Ideal.ofBits .f32 0x3727C5AC#32

def sqn (x : A3) (b : Fin 8) (n : Fin 4096) : EReal := ∑ d : Fin 256, x b n d * x b n d

def cross (f1 f2 : A3) (b : Fin 8) (v e : Fin 4096) : EReal := ∑ d : Fin 256, f1 b v d * f2 b e d

def sqd (f1 f2 : A3) (b : Fin 8) (v e : Fin 4096) : EReal := (sqn f1 b v + sqn f2 b e) - two * cross f1 f2 b v e

def hg (f1 f2 : A3) (b : Fin 8) (v e : Fin 4096) : EReal := if sqd f1 f2 b v e < thrSq then 1 else 0

def inv (t : EReal) : EReal := if zero < t then Ideal.div one t else zero

def X (f1 : A3) (Wfc : Fin 256 → Fin 256 → EReal) (bfc : Fin 256 → EReal) (b : Fin 8) (v : Fin 4096) (d : Fin 256) : EReal :=
  (∑ k : Fin 256, f1 b v k * Wfc d k) + bfc d

def degE (f1 f2 : A3) (b : Fin 8) (e : Fin 4096) : EReal := ∑ v : Fin 4096, hg f1 f2 b v e

def E (f1 f2 : A3) (Wfc : Fin 256 → Fin 256 → EReal) (bfc : Fin 256 → EReal) : A3 := fun b e d =>
  (∑ v : Fin 4096, hg f1 f2 b v e * X f1 Wfc bfc b v d) * inv (degE f1 f2 b e) + f2 b e d

def degV (f1 f2 : A3) (b : Fin 8) (v : Fin 4096) : EReal := ∑ e : Fin 4096, hg f1 f2 b v e

def enh (f1 f2 Ev : A3) : A3 := fun b v d =>
  (∑ e : Fin 4096, hg f1 f2 b v e * Ev b e d) * inv (degV f1 f2 b v) + f1 b v d

def hid (x : A3) (W1 : Fin 1024 → Fin 256 → EReal) (b1 : Fin 1024 → EReal) (b : Fin 8) (n : Fin 4096) (f : Fin 1024) : EReal :=
  max ((∑ d : Fin 256, x b n d * W1 f d) + b1 f) zero

def q (x : A3) (W1 : Fin 1024 → Fin 256 → EReal) (b1 : Fin 1024 → EReal) (W2 : Fin 256 → Fin 1024 → EReal) (b2 : Fin 256 → EReal) : A3 :=
  fun b n d => x b n d + ((∑ f : Fin 1024, hid x W1 b1 b n f * W2 d f) + b2 d)

def mu (y : A3) (b : Fin 8) (n : Fin 4096) : EReal := Ideal.div (∑ d : Fin 256, y b n d) n256

def var (y : A3) (b : Fin 8) (n : Fin 4096) : EReal :=
  Ideal.div (∑ d : Fin 256, (y b n d - mu y b n) * (y b n d - mu y b n)) n256

def ln (y : A3) (g s : Fin 256 → EReal) : A3 := fun b n d =>
  (y b n d - mu y b n) * Ideal.rsqrt (var y b n + eps) * g d + s d

def ffn (x : A3) (W1 : Fin 1024 → Fin 256 → EReal) (b1 : Fin 1024 → EReal) (W2 : Fin 256 → Fin 1024 → EReal) (b2 : Fin 256 → EReal)
    (g s : Fin 256 → EReal) : A3 := ln (q x W1 b1 W2 b2) g s

def result (f2 f1 : A3) (Wfc : Fin 256 → Fin 256 → EReal) (bfc : Fin 256 → EReal) (W1 : Fin 1024 → Fin 256 → EReal) (b1 : Fin 1024 → EReal)
    (W2 : Fin 256 → Fin 1024 → EReal) (b2 : Fin 256 → EReal) (g s : Fin 256 → EReal) : A3 :=
  ffn (enh f1 f2 (E f1 f2 Wfc bfc)) W1 b1 W2 b2 g s

open Idealize.ShloMosaic.ValueIdx

def co3 {n0 n1 n2 : Nat} (x : (⟨3, ![n0, n1, n2]⟩ : Shape).Idx → EReal) : Fin n0 → Fin n1 → Fin n2 → EReal := fun a b c => x (ix3 a b c)

def co2 {n0 n1 : Nat} (x : (⟨2, ![n0, n1]⟩ : Shape).Idx → EReal) : Fin n0 → Fin n1 → EReal := fun a b => x (ix2 a b)

def co1 {n0 : Nat} (x : (⟨1, ![n0]⟩ : Shape).Idx → EReal) : Fin n0 → EReal := fun a => x (ix1 a)

def ar3 {n0 n1 n2 : Nat} (f : Fin n0 → Fin n1 → Fin n2 → EReal) : (⟨3, ![n0, n1, n2]⟩ : Shape).Idx → EReal := fun i => f (i 0) (i 1) (i 2)
theorem co3_ar3 {n0 n1 n2 : Nat} (f : Fin n0 → Fin n1 → Fin n2 → EReal) : co3 (ar3 f) = f := rfl
theorem ar3_apply {n0 n1 n2 : Nat} (f : Fin n0 → Fin n1 → Fin n2 → EReal) (a : Fin n0) (b : Fin n1) (c : Fin n2) : ar3 f (ix3 a b c) = f a b c := rfl

end Cert.Spec

end
-- ==== Proof.LibMask.lean ====
import Idealize.ShloMosaic.PureOps.Ideal
import Idealize.ShloMosaic.PureOps.Ideal.Laws
import Idealize.ShloMosaic.Lib.ValueIdx
import proofs.«176735_j32615981646424_1_alg».proof.Proof.Spec

noncomputable section

open scoped BigOperators

namespace Cert.LibMask

open Idealize.ShloMosaic

theorem zero_eq : Cert.Spec.zero = 0 := Ideal.ofBits_zero_f32

private theorem thr_eq : Cert.Spec.thr = ((23 : ℝ) : EReal) := by
  unfold Cert.Spec.thr
  simp [Ideal.ofBits, Ideal.ieee, -EReal.coe_mul]; norm_num

private theorem thrSq_eq : Cert.Spec.thrSq = ((529 : ℝ) : EReal) := by
  unfold Cert.Spec.thrSq
  simp [Ideal.ofBits, Ideal.ieee, -EReal.coe_mul]; norm_num

theorem sqrt_max_lt_iff (x : EReal) : Ideal.sqrt (max x Cert.Spec.zero) < Cert.Spec.thr ↔ x < Cert.Spec.thrSq := by
  rw [zero_eq, thr_eq, thrSq_eq]
  induction x using EReal.rec with
  | bot =>

    have h0 : max (⊥ : EReal) 0 = ((0 : ℝ) : EReal) := by simp
    rw [h0, Ideal.sqrt_coe, if_neg (lt_irrefl _), Real.sqrt_zero]
    constructor
    · intro _; exact EReal.bot_lt_coe _
    · intro _; exact EReal.coe_lt_coe_iff.mpr (by norm_num)
  | top =>

    have h0 : max (⊤ : EReal) 0 = ⊤ := by simp
    rw [h0, Ideal.sqrt_top]
    constructor
    · intro h; exact absurd h (not_lt.mpr le_top)
    · intro h; exact absurd h (not_lt.mpr le_top)
  | coe r =>
    have h0 : max (r : EReal) 0 = ((max r 0 : ℝ) : EReal) :=
      (EReal.coe_strictMono.monotone.map_max (a := r) (b := 0)).symm
    rw [h0, Ideal.sqrt_coe, if_neg (not_lt.mpr (le_max_right r 0)), EReal.coe_lt_coe_iff, EReal.coe_lt_coe_iff,
      Real.sqrt_lt' (by norm_num : (0 : ℝ) < 23)]
    constructor
    · intro h
      have h1 : r < (23 : ℝ) ^ 2 := lt_of_le_of_lt (le_max_left r 0) h
      norm_num at h1
      exact h1
    · intro h
      rw [max_lt_iff]
      constructor
      · norm_num; exact h
      · norm_num

theorem mask_signed (a b : EReal) :
    FloatOps.sitofp (F := Ideal) .f32 ((FloatOps.cmpf (F := Ideal) (φ := .f32) .olt a b).setWidth 32) = if a < b then (1 : EReal) else 0 := by
  show (((((Ideal.cmp .olt a b).setWidth 32).toInt : ℤ) : ℝ) : EReal) = _
  by_cases h : a < b
  · have e : (Ideal.cmp .olt a b).setWidth 32 = 1#32 := by simp [Ideal.cmp, h]
    rw [e, if_pos h]
    norm_num
  · have e : (Ideal.cmp .olt a b).setWidth 32 = 0#32 := by simp [Ideal.cmp, h]
    rw [e, if_neg h]
    norm_num

theorem mask_unsigned (a b : EReal) :
    FloatOps.uitofp (F := Ideal) .f32 (FloatOps.cmpf (F := Ideal) (φ := .f32) .olt a b) = if a < b then (1 : EReal) else 0 := by
  show ((((Ideal.cmp .olt a b).toNat : ℕ) : ℝ) : EReal) = _
  by_cases h : a < b
  · have e : Ideal.cmp .olt a b = 1#1 := by simp [Ideal.cmp, h]
    rw [e, if_pos h]
    norm_num
  · have e : Ideal.cmp .olt a b = 0#1 := by simp [Ideal.cmp, h]
    rw [e, if_neg h]
    norm_num

theorem inv_eq (t : EReal) :
    Scalar.select (FloatOps.cmpf (F := Ideal) (φ := .f32) .ogt t Cert.Spec.zero) (Ideal.div Cert.Spec.one t) Cert.Spec.zero = Cert.Spec.inv t := by
  show Scalar.select (Ideal.cmp .ogt t Cert.Spec.zero) _ _ = _
  unfold Cert.Spec.inv
  by_cases h : Cert.Spec.zero < t
  · have e : Ideal.cmp .ogt t Cert.Spec.zero = 1#1 := by simp [Ideal.cmp, h]
    rw [e, if_pos h, ValueIdx.select_one]
  · have e : Ideal.cmp .ogt t Cert.Spec.zero = 0#1 := by simp [Ideal.cmp, h]
    rw [e, if_neg h, ValueIdx.select_zero]

theorem sum_blocks8 {M : Type*} [AddCommMonoid M] (f : Fin 4096 → M) :
    ∑ v : Fin 4096, f v = ∑ j : Fin 8, ∑ r : Fin 512, f ⟨512 * j.val + r.val, by omega⟩ := by

  rw [← Fintype.sum_prod_type' (f := fun (j : Fin 8) (r : Fin 512) => f ⟨512 * j.val + r.val, by omega⟩)]
  symm
  refine Fintype.sum_equiv (finProdFinEquiv (m := 8) (n := 512)) _ _ ?_
  rintro ⟨j, r⟩
  refine congrArg f ?_
  apply Fin.ext
  simp [finProdFinEquiv]
  omega

end Cert.LibMask

end
-- ==== Proof.KI.HgPayload.lean ====
import proofs.«176735_j32615981646424_1_alg».proof.Proof.Gen.KernelIdeal.Skeleton
import proofs.«176735_j32615981646424_1_alg».proof.Proof.Spec
import proofs.«176735_j32615981646424_1_alg».proof.Proof.LibMask
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Idealize.ShloMosaic Idealize.ShloMosaic.ValueIdx
open Cert.Spec

def hgBlk (f1 f2 : Fin 512 → Fin 256 → EReal) (p q : Fin 512) : EReal :=
  if ((∑ d : Fin 256, f1 p d * f1 p d) + (∑ d : Fin 256, f2 q d * f2 q d)) - two * (∑ d : Fin 256, f1 p d * f2 q d) < thrSq then 1 else 0

-- The all-zero offset vector of each rank is the constant zero function.
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

-- A sum along the columns of a matrix, at row p, is the sum of the row's entries.
theorem rowSum_apply {a b : ℕ} (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (p : Fin a) :
    multiReduction (F := Ideal) .add [1] ⟨1, ![a]⟩ v 0x00000000#32 h hφ hacc (ix1 p) = ∑ d : Fin b, v (ix2 p d) :=
  (Ideal.multiReduction_add_single v _ h hφ hacc (ix1 p)).trans
    (Finset.sum_congr rfl fun d _ => congrArg v (funext fun c => Fin.ext (by fin_cases c <;> rfl)))

theorem colSum_apply {a b : ℕ} (v : FVec Ideal ⟨2, ![a, b]⟩ .f32) (h : (⟨2, ![a, b]⟩ : Shape).Reduces [0] ⟨1, ![b]⟩) (hφ : FKind.Formats .f32)
    (hacc : (0x00000000#32 : BitVec 32) = FKind.add.neutral .f32 hφ) (q : Fin b) :
    multiReduction (F := Ideal) .add [0] ⟨1, ![b]⟩ v 0x00000000#32 h hφ hacc (ix1 q) = ∑ n : Fin a, v (ix2 n q) :=
  (Ideal.multiReduction_add_single v _ h hφ hacc (ix1 q)).trans
    (Finset.sum_congr rfl fun n _ => congrArg v (funext fun c => Fin.ext (by fin_cases c <;> rfl)))

-- A product of two matrices contracted along one axis of each, into zeros, at (p, q): the sum over the contracted coordinate.
theorem matmul_ix2 {sl sr : Shape} {m n k : ℕ} {φ₁ φ₂ : FTy} (D : DotDims sl sr ⟨2, ![m, n]⟩) (hr : D.contr.rank = 1) (hs : D.contr.size ⟨0, by omega⟩ = k)
    (prec : Option ContractPrecision) (A : FVec Ideal sl φ₁) (B : FVec Ideal sr φ₂) (p : Fin m) (q : Fin n) (l : Fin k → sl.Idx) (r : Fin k → sr.Idx)
    (hl : ∀ j a, (D.lhsIdx (ix2 p q) ((contrEquiv1 D k hr hs).symm j) a).val = (l j a).val)
    (hr' : ∀ j a, (D.rhsIdx (ix2 p q) ((contrEquiv1 D k hr hs).symm j) a).val = (r j a).val) :
    matmul D prec A B (constant (F := Ideal) ⟨2, ![m, n]⟩ .f32 0x00000000#32) (ix2 p q) = ∑ j : Fin k, A (l j) * B (r j) := by
  refine (Ideal.matmul_constant_zero_apply D prec A B (ix2 p q)).trans ?_
  rw [← Equiv.sum_comp (contrEquiv1 D k hr hs).symm]
  exact Finset.sum_congr rfl fun j _ => by rw [funext fun a => Fin.ext (hl j a), funext fun a => Fin.ext (hr' j a)]

theorem blockProduct_apply (x y : FVec Ideal S512x256 .f32) (p q : Fin 512) :
    matmul dot_S512x256_S512x256_S512x512_1_1_0_0_n_n (some .fp32) x y (constant (F := Ideal) S512x512 .f32 0x00000000#32) (ix2 p q)
      = ∑ d : Fin 256, x (ix2 p d) * y (ix2 q d) :=
  matmul_ix2 _ rfl rfl _ x y p q _ _ (fun j a => by fin_cases a <;> rfl) (fun j a => by fin_cases a <;> rfl)

theorem sqd_apply (N1 N2 M : FVec Ideal S512x512 .f32) (i : S512x512.Idx) (a b c : EReal) (h1 : N1 i = a) (h2 : N2 i = b) (h3 : M i = c) :
    subf (addf N1 N2) (mulf (broadcast S512x512 (Scalar.ofBits (F := Ideal) .f32 0x40000000#32)) M) i = (a + b) - two * c := by
  subst h1 h2 h3
  rfl

-- Both accumulating launches compute the mask from the two query blocks with the leading unit axis dropped.
theorem mask_blk (v3 v5 : Vec Ideal S1x512x256 .f32) (p q : Fin 512) :
    k0_pay8 (F := Ideal) v3 v5 (ix2 p q) = hgBlk (fun a d => v3 (ix3 0 a d)) (fun a d => v5 (ix3 0 a d)) p q := by
  have e (v : Vec Ideal S1x512x256 .f32) : (fun a d => v (ix3 0 a d)) = fun (a : Fin 512) (d : Fin 256) => shapeCast S512x256 v shapeCasts_S1x512x256_S512x256 (ix2 a d) :=
    funext fun a => funext fun d => (shapeCast_1ab_ab_apply v shapeCasts_S1x512x256_S512x256 a d).symm
  rw [e v3, e v5]
  unfold k0_pay8 hgBlk
  exact (Cert.LibMask.mask_signed _ _).trans (congrArg₂ (fun a b : EReal => if a < b then (1 : EReal) else 0) (sqd_apply _ _ _ (ix2 p q) _ _ _
    ((broadcastTo_a1_ab_apply _ broadcasts_S512x1_S512x512 p q).trans ((shapeCast_a_a1_apply _ shapeCasts_S512_S512x1 p 0).trans (rowSum_apply (mulf (k0_pay6 v3) (k0_pay6 v3)) _ _ _ p)))
    ((broadcastTo_1b_ab_apply _ broadcasts_S1x512_S512x512 p q).trans ((transpose_ix2_apply _ transposes_S512x1_p1_0_S1x512 0 q).trans
      ((shapeCast_a_a1_apply _ shapeCasts_S512_S512x1 q 0).trans (rowSum_apply (mulf (k0_pay7 v5) (k0_pay7 v5)) _ _ _ q))))
    (blockProduct_apply (k0_pay6 v3) (k0_pay7 v5) p q)) rfl)

theorem k0_pay8_apply (v3 v5 : Vec Ideal S1x512x256 .f32) (p q : Fin 512) :
    k0_pay8 (F := Ideal) v3 v5 (ix2 p q) = hgBlk (fun a d => v3 (ix3 0 a d)) (fun a d => v5 (ix3 0 a d)) p q := mask_blk v3 v5 p q

theorem k1_pay6_apply (v3 v5 : Vec Ideal S1x512x256 .f32) (p q : Fin 512) :
    k1_pay6 (F := Ideal) v3 v5 (ix2 p q) = hgBlk (fun a d => v3 (ix3 0 a d)) (fun a d => v5 (ix3 0 a d)) p q := mask_blk v3 v5 p q

end Cert.KernelIdeal.HandValue

end
-- ==== Proof.KI.R0ValuePieces.lean ====
import proofs.«176735_j32615981646424_1_alg».proof.Proof.KI.R0Data
import proofs.«176735_j32615981646424_1_alg».proof.Proof.KI.HgPayload
import Idealize.ShloMosaic.Lib.Tactic

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Idealize.ShloMosaic.Tactic

variable {F : FTy → Type} [FloatOps F]

variable (c : Dev nD) (i : grid0.Coords) (arg3 : Memref sig .tc .vmem S1x512x256 .f32) (harg3 : arg3.IsWhole) (arg4 : Memref sig .tc .vmem S1x512x256 .f32) (harg4 : arg4.IsWhole)
  (arg5 : Memref sig .tc .vmem S256x256 .f32) (harg5 : arg5.IsWhole) (arg6 : Memref sig .tc .vmem S256 .f32) (harg6 : arg6.IsWhole) (arg7 : Memref sig .tc .vmem S1x512x256 .f32) (harg7 : arg7.IsWhole)
  (arg8 : Memref sig .tc .vmem S512x256 .f32) (harg8 : arg8.IsWhole) (arg9 : Memref sig .tc .vmem S1x512 .f32) (harg9 : arg9.IsWhole)

-- What each control case leaves: the accumulators' reset value or previous contents plus the step's contribution, and at a last step the stored output.
section
variable (hc0 : cond0_0 i) (hc1 : ¬cond0_1 i) (x0 x1 : Vec F S1x512x256 .f32) (x2 : Vec F S256x256 .f32) (x3 : Vec F S256 .f32)

theorem piece_A : sout0_A_0 c i arg3 harg3 arg4 harg4 arg5 harg5 arg6 harg6 arg7 harg7 arg8 harg8 arg9 harg9 hc0 hc1 x0 x1 x2 x3 = k0_pay1 (k0_pay9 x0 x1 x2 x3) (k0_pay4 (F := F))
    ∧ sout0_A_1 c i arg3 harg3 arg4 harg4 arg5 harg5 arg6 harg6 arg7 harg7 arg8 harg8 arg9 harg9 hc0 hc1 x0 x1 x2 x3 = k0_pay2 (k0_pay8 x0 x1) (k0_pay5 (F := F)) := by
  unfold sout0_A_0 sout0_A_1
  rw [View.read_writes_eq_canon _ _ _ (fun _ => scover0_A_0 ..), View.read_writes_eq_canon _ _ _ (fun _ => scover0_A_1 ..)]
  unfold kernelRun0_A
  dsimp only
  sl_unfold_words
  rw [View.canon_cons_unit_zero (S := S512x256) hz2, View.canon_cons_unit_zero (S := S1x512) hz2]
  simp only [View.readAt_eq_ld, Memref.IsWhole.read_unread, View.ld_unit_zero (S := S512x256) hz2, View.ld_unit_zero (S := S1x512) hz2, View.ld_unit_zero (S := S1x512x256) hz3, View.ld_unit_zero (S := S256x256) hz2, View.ld_unit_zero (S := S256) hz1, View.readCov_unit_zero (S := S512x256) _ hz2, View.readCov_unit_zero (S := S1x512) _ hz2, and_self]

end

section
variable (hc0 : ¬cond0_0 i) (hc1 : ¬cond0_1 i) (x0 x1 : Vec F S1x512x256 .f32) (x2 : Vec F S256x256 .f32) (x3 : Vec F S256 .f32) (xs0 : Vec F S512x256 .f32) (xs1 : Vec F S1x512 .f32)

theorem piece_B : sout0_B_0 c i arg3 harg3 arg4 harg4 arg5 harg5 arg6 harg6 arg7 harg7 arg8 harg8 arg9 harg9 hc0 hc1 x0 x1 x2 x3 xs0 xs1 = k0_pay1 (k0_pay9 x0 x1 x2 x3) xs0
    ∧ sout0_B_1 c i arg3 harg3 arg4 harg4 arg5 harg5 arg6 harg6 arg7 harg7 arg8 harg8 arg9 harg9 hc0 hc1 x0 x1 x2 x3 xs0 xs1 = k0_pay2 (k0_pay8 x0 x1) xs1 := by
  unfold sout0_B_0 sout0_B_1
  rw [View.read_writes_eq_canon _ _ _ (fun _ => scover0_B_0 ..), View.read_writes_eq_canon _ _ _ (fun _ => scover0_B_1 ..)]
  unfold kernelRun0_B
  dsimp only
  sl_unfold_words
  rw [View.canon_unit_zero hz2, View.canon_unit_zero hz2]
  simp only [View.readAt_eq_ld, Memref.IsWhole.read_unread, View.ld_unit_zero (S := S512x256) hz2, View.ld_unit_zero (S := S1x512) hz2, View.ld_unit_zero (S := S1x512x256) hz3, View.ld_unit_zero (S := S256x256) hz2, View.ld_unit_zero (S := S256) hz1, View.readCov_unit_zero (S := S512x256) _ hz2, View.readCov_unit_zero (S := S1x512) _ hz2, and_self]

end

section
variable (hc0 : ¬cond0_0 i) (hc1 : cond0_1 i) (x0 x1 : Vec F S1x512x256 .f32) (x2 : Vec F S256x256 .f32) (x3 : Vec F S256 .f32) (xs0 : Vec F S512x256 .f32) (xs1 : Vec F S1x512 .f32)

theorem piece_C : sout0_C_0 c i arg3 harg3 arg4 harg4 arg5 harg5 arg6 harg6 arg7 harg7 arg8 harg8 arg9 harg9 hc0 hc1 x0 x1 x2 x3 xs0 xs1 = k0_pay1 (k0_pay9 x0 x1 x2 x3) xs0
    ∧ sout0_C_1 c i arg3 harg3 arg4 harg4 arg5 harg5 arg6 harg6 arg7 harg7 arg8 harg8 arg9 harg9 hc0 hc1 x0 x1 x2 x3 xs0 xs1 = k0_pay2 (k0_pay8 x0 x1) xs1
    ∧ out0_C_4 c i arg3 harg3 arg4 harg4 arg5 harg5 arg6 harg6 arg7 harg7 arg8 harg8 arg9 harg9 hc0 hc1 x0 x1 x2 x3 xs0 xs1 = k0_pay3 (k0_pay7 x1) (k0_pay2 (k0_pay8 x0 x1) xs1) (k0_pay1 (k0_pay9 x0 x1 x2 x3) xs0) := by
  unfold sout0_C_0 sout0_C_1 out0_C_4
  rw [View.read_writes_eq_canon _ _ _ (fun _ => scover0_C_0 ..), View.read_writes_eq_canon _ _ _ (fun _ => scover0_C_1 ..), View.read_writes_eq_canon _ _ _ (fun _ => cover0_C_4 ..)]
  unfold kernelRun0_C
  dsimp only
  sl_unfold_words
  rw [View.canon_unit_zero hz2, View.canon_unit_zero hz2, View.canon_unit_zero hz3]
  simp only [View.readAt_eq_ld, Memref.IsWhole.read_unread, View.ld_unit_zero (S := S512x256) hz2, View.ld_unit_zero (S := S1x512) hz2, View.ld_unit_zero (S := S1x512x256) hz3, View.ld_unit_zero (S := S256x256) hz2, View.ld_unit_zero (S := S256) hz1, View.readCov_unit_zero (S := S512x256) _ hz2, View.readCov_unit_zero (S := S1x512) _ hz2, and_self]

end

end Cert.KernelIdeal.HandValue

end
-- ==== Proof.KI.R0ValuePay.lean ====
import proofs.«176735_j32615981646424_1_alg».proof.Proof.KI.HgPayload

noncomputable section

open scoped BigOperators

namespace Cert.KernelIdeal.HandValue

open Cert.KernelIdeal Cert.KernelIdeal.Gen
open Idealize.ShloMosaic Idealize.ShloMosaic.ValueIdx
open Cert.Spec

theorem k0_pay4_apply (p : Fin 512) (q : Fin 256) : (k0_pay4 (F := Ideal)) (ix2 p q) = 0 := by
  simp only [k0_pay4, shapeCast_self, broadcast_apply]
  exact Ideal.ofBits_zero_f32

theorem k0_pay5_apply (q : Fin 512) : (k0_pay5 (F := Ideal)) (ix2 (0 : Fin 1) q) = 0 := by
  simp only [k0_pay5, shapeCast_self, broadcast_apply]
  exact Ideal.ofBits_zero_f32

theorem k0_pay1_apply (v35 : FVec Ideal S512x256 .f32) (v36 : Vec Ideal S512x256 .f32) (p : Fin 512) (q : Fin 256) :
    k0_pay1 (F := Ideal) v35 v36 (ix2 p q) = v36 (ix2 p q) + v35 (ix2 p q) := by
  simp only [k0_pay1, shapeCast_self]
  rfl

theorem k0_pay2_apply (v24 : FVec Ideal S512x512 .f32) (v41 : Vec Ideal S1x512 .f32) (q : Fin 512) :
    k0_pay2 (F := Ideal) v24 v41 (ix2 (0 : Fin 1) q) = v41 (ix2 (0 : Fin 1) q) + ∑ n : Fin 512, v24 (ix2 n q) := by
  simp only [k0_pay2, shapeCast_self]
  exact congrArg (v41 (ix2 (0 : Fin 1) q) + ·) ((shapeCast_a_1a_apply _ _ (0 : Fin 1) q).trans (colSum_apply v24 _ _ _ q))

theorem k0_pay7_apply (v5 : Vec Ideal S1x512x256 .f32) (p : Fin 512) (q : Fin 256) :
    k0_pay7 (F := Ideal) v5 (ix2 p q) = v5 (ix3 (0 : Fin 1) p q) :=
  shapeCast_1ab_ab_apply _ _ p q

theorem k0_pay6_apply (v3 : Vec Ideal S1x512x256 .f32) (p : Fin 512) (q : Fin 256) :
    k0_pay6 (F := Ideal) v3 (ix2 p q) = v3 (ix3 (0 : Fin 1) p q) :=
  shapeCast_1ab_ab_apply _ _ p q

theorem k0_pay3_apply (v6 : FVec Ideal S512x256 .f32) (v52 : Vec Ideal S1x512 .f32) (v60 : Vec Ideal S512x256 .f32) (p : Fin 512) (q : Fin 256) :
    k0_pay3 (F := Ideal) v6 v52 v60 (ix3 (0 : Fin 1) p q) = v60 (ix2 p q) * inv (v52 (ix2 (0 : Fin 1) p)) + v6 (ix2 p q) := by
  simp only [k0_pay3]
  refine (shapeCast_ab_1ab_apply _ _ (0 : Fin 1) p q).trans ?_
  rw [addf_apply, mulf_apply, broadcastTo_a1_ab_apply, select_apply, cmpf_apply, divf_apply, transpose_ix2_apply]
  simp only [broadcast_apply]
  exact congrArg (fun t => v60 (ix2 p q) * t + v6 (ix2 p q)) (Cert.LibMask.inv_eq (v52 (ix2 (0 : Fin 1) p)))

theorem proj_apply (A : FVec Ideal S512x256 .bf16) (B : FVec Ideal S256x256 .bf16) (n : Fin 512) (d : Fin 256) :
    matmul dot_S512x256_S256x256_S512x256_1_1_0_0_n_n none A B (constant (F := Ideal) S512x256 .f32 0x00000000#32) (ix2 n d) = ∑ k : Fin 256, A (ix2 n k) * B (ix2 d k) :=
  matmul_ix2 _ rfl rfl _ A B n d _ _ (fun j a => by fin_cases a <;> rfl) (fun j a => by fin_cases a <;> rfl)

theorem agg_apply (A : FVec Ideal S512x512 .bf16) (B : FVec Ideal S512x256 .bf16) (e : Fin 512) (d : Fin 256) :
    matmul dot_S512x512_S512x256_S512x256_0_0_1_1_n_n none A B (constant (F := Ideal) S512x256 .f32 0x00000000#32) (ix2 e d) = ∑ n : Fin 512, A (ix2 n e) * B (ix2 n d) :=
  matmul_ix2 _ rfl rfl _ A B e d _ _ (fun j a => by fin_cases a <;> rfl) (fun j a => by fin_cases a <;> rfl)

theorem k0_pay9_apply (v3 v5 : Vec Ideal S1x512x256 .f32) (v27 : Vec Ideal S256x256 .f32) (v30 : Vec Ideal S256 .f32) (e : Fin 512) (d : Fin 256) :
    k0_pay9 (F := Ideal) v3 v5 v27 v30 (ix2 e d)
      = ∑ n : Fin 512, hgBlk (fun a k => v3 (ix3 0 a k)) (fun a k => v5 (ix3 0 a k)) n e
          * ((∑ k : Fin 256, v3 (ix3 (0 : Fin 1) n k) * v27 (ix2 d k)) + v30 (ix1 d)) := by
  simp only [k0_pay9]
  refine (agg_apply _ _ e d).trans (Finset.sum_congr rfl fun n _ => ?_)
  rw [truncf_apply, truncf_apply, k0_pay8_apply, addf_apply, proj_apply, broadcastTo_1b_ab_apply, shapeCast_a_1a_apply]
  simp only [truncf_apply, k0_pay6_apply]

end Cert.KernelIdeal.HandValue

end
-- ==== Proof.KI.R0ValueStep.lean ====
import proofs.«176735_j32615981646424_1_alg».proof.Proof.KI.R0ValuePay

noncomputable section

open scoped BigOperators

namespace Cert.KernelIdeal.HandValue

open Cert.KernelIdeal Cert.KernelIdeal.Gen
open Idealize.ShloMosaic Idealize.ShloMosaic.ValueIdx
open Cert.Spec

def blkIx (j : Fin 8) (n : Fin 512) : Fin 4096 := ⟨512 * j.val + n.val, by omega⟩

def stepF (f1 f2 : A3) (W : Fin 256 → Fin 256 → EReal) (B : Fin 256 → EReal) (b : Fin 8) (e : Fin 4096) (d : Fin 256) (j : Fin 8) : EReal :=
  ∑ n : Fin 512, hg f1 f2 b (blkIx j n) e * X f1 W B b (blkIx j n) d

def stepD (f1 f2 : A3) (b : Fin 8) (e : Fin 4096) (j : Fin 8) : EReal :=
  ∑ n : Fin 512, hg f1 f2 b (blkIx j n) e

def upto (g : Fin 8 → EReal) (r : ℕ) : EReal := ∑ j ∈ Finset.range (r + 1), if h : j < 8 then g ⟨j, h⟩ else 0

theorem upto_zero (g : Fin 8 → EReal) : upto g 0 = g ⟨0, by decide⟩ :=
  (Finset.sum_range_one _).trans (dif_pos (by decide))

theorem upto_succ (g : Fin 8 → EReal) (r : ℕ) (h : r + 1 < 8) : upto g (r + 1) = upto g r + g ⟨r + 1, h⟩ := by
  unfold upto
  rw [Finset.sum_range_succ, dif_pos h]

theorem upto_seven (g : Fin 8 → EReal) : upto g 7 = ∑ j : Fin 8, g j :=
  (Finset.sum_range (fun j => if h : j < 8 then g ⟨j, h⟩ else 0)).trans (Finset.sum_congr rfl fun j _ => dif_pos j.isLt)

theorem E_blocks (f1 f2 : A3) (W : Fin 256 → Fin 256 → EReal) (B : Fin 256 → EReal) (b : Fin 8) (e : Fin 4096) (d : Fin 256) :
    E f1 f2 W B b e d = (∑ j : Fin 8, stepF f1 f2 W B b e d j) * inv (∑ j : Fin 8, stepD f1 f2 b e j) + f2 b e d := by
  unfold E degE
  rw [Cert.LibMask.sum_blocks8 (fun v => hg f1 f2 b v e * X f1 W B b v d), Cert.LibMask.sum_blocks8 (fun v => hg f1 f2 b v e)]
  rfl

section
variable {x0 x1 : Vec Ideal S1x512x256 .f32} {f1 f2 : A3} {b jn jo : Fin 8}
  (h0 : ∀ (n : Fin 512) (k : Fin 256), x0 (ix3 (0 : Fin 1) n k) = f1 b (blkIx jn n) k)
  (h1 : ∀ (e : Fin 512) (k : Fin 256), x1 (ix3 (0 : Fin 1) e k) = f2 b (blkIx jo e) k)
include h0 h1

-- A step whose node block is block jn and whose hyperedge block is block jo of batch b contributes block jn's part of both sums.
theorem pay9_step {x2 : Vec Ideal S256x256 .f32} {x3 : Vec Ideal S256 .f32} {W : Fin 256 → Fin 256 → EReal} {B : Fin 256 → EReal}
    (h2 : ∀ (d k : Fin 256), x2 (ix2 d k) = W d k) (h3 : ∀ d : Fin 256, x3 (ix1 d) = B d) (e : Fin 512) (d : Fin 256) :
    k0_pay9 (F := Ideal) x0 x1 x2 x3 (ix2 e d) = stepF f1 f2 W B b (blkIx jo e) d jn := by
  rw [k0_pay9_apply]
  simp only [h0, h1, h2, h3]
  rfl

theorem pay8_step (e : Fin 512) : ∑ n : Fin 512, k0_pay8 (F := Ideal) x0 x1 (ix2 n e) = stepD f1 f2 b (blkIx jo e) jn := by
  simp only [k0_pay8_apply, h0, h1]
  rfl

end

end Cert.KernelIdeal.HandValue

end
-- ==== Proof.KI.R0ValueBlk.lean ====
import proofs.«176735_j32615981646424_1_alg».proof.Proof.KI.R0Data
import proofs.«176735_j32615981646424_1_alg».proof.Proof.KI.HgPayload

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

theorem idx_facts0 : ∀ t : Fin cfg0.N,
    win0_0.index t (0 : Fin 3) = t.val / 64 ∧ win0_0.index t (1 : Fin 3) = t.val % 8 ∧ win0_0.index t (2 : Fin 3) = 0
    ∧ win0_1.index t (0 : Fin 3) = t.val / 64 ∧ win0_1.index t (1 : Fin 3) = t.val / 8 % 8 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 64 ∧ win0_4.index t (1 : Fin 3) = t.val / 8 % 8 ∧ win0_4.index t (2 : Fin 3) = 0 :=
  (by decide +kernel : ∀ t : Fin grid0.N, _)

theorem cover4 (i : S8x4096x256.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 256 := (i 2).isLt
  have hN : cfg0.N = 512 := N_0
  let t : Fin cfg0.N := ⟨64 * (i 0).val + 8 * ((i 1).val / 512) + 7, by omega⟩
  have ht : t.val = 64 * (i 0).val + 8 * ((i 1).val / 512) + 7 := rfl
  obtain ⟨-, -, -, -, -, -, -, -, -, e0, e1, e2⟩ := idx_facts0 t
  refine ⟨t, (flush0_4 t).mpr (by omega), ?_⟩
  show i ∈ ((View.whole main_v0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 256 ≤ (i 2).val ∧ (i 2).val < win0_4.index t (2 : Fin 3) * 256 + 256; rw [e2]; omega

end Cert.KernelIdeal.HandValue

end
-- ==== Proof.KI.R0Value.lean ====
import proofs.«176735_j32615981646424_1_alg».proof.Proof.KI.R0ValuePieces
import proofs.«176735_j32615981646424_1_alg».proof.Proof.KI.R0ValueStep
import proofs.«176735_j32615981646424_1_alg».proof.Proof.KI.R0ValueBlk

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

abbrev F1 (c : Dev nD) : A3 := co3 (V c main_arg1 : S8x4096x256.Idx → EReal)
abbrev F2 (c : Dev nD) : A3 := co3 (V c main_arg0 : S8x4096x256.Idx → EReal)
abbrev Wm (c : Dev nD) : Fin 256 → Fin 256 → EReal := co2 (V c main_arg2 : S256x256.Idx → EReal)
abbrev Bv (c : Dev nD) : Fin 256 → EReal := co1 (V c main_arg3 : S256.Idx → EReal)

-- Point t = 64 b + 8 o + r: its batch b, its hyperedge block o, its node block r.
def ptB (t : Fin cfg0.N) : Fin 8 := ⟨t.val / 64, by have := t.isLt; have hN : cfg0.N = 512 := N_0; omega⟩
def ptO (t : Fin cfg0.N) : Fin 8 := ⟨t.val / 8 % 8, by omega⟩
def ptR (t : Fin cfg0.N) : Fin 8 := ⟨t.val % 8, by omega⟩

variable (c : Dev nD) (t : Fin cfg0.N)

theorem hblk0 (n : Fin 512) (k : Fin 256) :
    (iblk0 V c 0 t : Vec Ideal S1x512x256 .f32) (ix3 (0 : Fin 1) n k) = F1 V c (ptB t) (blkIx (ptR t) n) k := by
  obtain ⟨e0, e1, e2, -⟩ := idx_facts0 t
  unfold iblk0
  rw [View.read_apply]
  show V c main_arg1 _ = V c main_arg1 _
  congr 1
  funext a
  apply Fin.ext
  match a with
  | ⟨0, _⟩ => show win0_0.index t (0 : Fin 3) * 1 + 1 * 0 = t.val / 64; omega
  | ⟨1, _⟩ => show win0_0.index t (1 : Fin 3) * 512 + 1 * n.val = 512 * (t.val % 8) + n.val; omega
  | ⟨2, _⟩ => show win0_0.index t (2 : Fin 3) * 256 + 1 * k.val = k.val; omega

theorem hblk1 (e : Fin 512) (k : Fin 256) :
    (iblk0 V c 1 t : Vec Ideal S1x512x256 .f32) (ix3 (0 : Fin 1) e k) = F2 V c (ptB t) (blkIx (ptO t) e) k := by
  obtain ⟨-, -, -, e0, e1, e2, -⟩ := idx_facts0 t
  unfold iblk0
  rw [View.read_apply]
  show V c main_arg0 _ = V c main_arg0 _
  congr 1
  funext a
  apply Fin.ext
  match a with
  | ⟨0, _⟩ => show win0_1.index t (0 : Fin 3) * 1 + 1 * 0 = t.val / 64; omega
  | ⟨1, _⟩ => show win0_1.index t (1 : Fin 3) * 512 + 1 * e.val = 512 * (t.val / 8 % 8) + e.val; omega
  | ⟨2, _⟩ => show win0_1.index t (2 : Fin 3) * 256 + 1 * k.val = k.val; omega

theorem hblk2 (d k : Fin 256) : (iblk0 V c 2 t : Vec Ideal S256x256 .f32) (ix2 d k) = Wm V c d k := by
  obtain ⟨-, -, -, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 256 + 1 * d.val = d.val; omega
  | ⟨1, _⟩ => show win0_2.index t (1 : Fin 2) * 256 + 1 * k.val = k.val; omega

theorem hblk3 (d : Fin 256) : (iblk0 V c 3 t : Vec Ideal S256 .f32) (ix1 d) = Bv V c d := by
  obtain ⟨-, -, -, -, -, -, -, -, e0, -⟩ := idx_facts0 t
  unfold iblk0
  rw [View.read_apply]
  show V c main_arg3 _ = V c main_arg3 _
  congr 1
  funext a
  apply Fin.ext
  match a with
  | ⟨0, _⟩ => show win0_3.index t (0 : Fin 1) * 256 + 1 * d.val = d.val; omega

-- After the body at point t the accumulators hold, for each hyperedge of the point's block, the sums over the node blocks 0 … r.
def Inv : Prop :=
  (∀ (e : Fin 512) (d : Fin 256), ((outsAt0 V c t.val t.isLt).2.1 : Vec Ideal S512x256 .f32) (ix2 e d)
      = upto (stepF (F1 V c) (F2 V c) (Wm V c) (Bv V c) (ptB t) (blkIx (ptO t) e) d) (t.val % 8))
  ∧ (∀ e : Fin 512, ((outsAt0 V c t.val t.isLt).2.2 : Vec Ideal S1x512 .f32) (ix2 (0 : Fin 1) e)
      = upto (stepD (F1 V c) (F2 V c) (ptB t) (blkIx (ptO t) e)) (t.val % 8))

theorem inv_A (h0 : t.val % 8 = 0) (h1 : ¬t.val % 8 = 7) : Inv V c t := by
  have htr : ptR t = ⟨0, by decide⟩ := Fin.ext h0
  unfold Inv
  rw [outsAt0_A V c t h0 h1]
  unfold at0_A outs0_A
  dsimp only
  rw [(piece_A ..).1, (piece_A ..).2]
  refine ⟨fun e d => ?_, fun e => ?_⟩
  · rw [k0_pay1_apply, k0_pay4_apply, zero_add, pay9_step (hblk0 V c t) (hblk1 V c t) (hblk2 V c t) (hblk3 V c t), h0, upto_zero, htr]
  · rw [k0_pay2_apply, k0_pay5_apply, zero_add, pay8_step (hblk0 V c t) (hblk1 V c t), h0, upto_zero, htr]

section Later
variable (h0 : ¬t.val % 8 = 0) (ih : Inv V c ⟨t.val - 1, Nat.lt_of_le_of_lt (Nat.sub_le _ _) t.isLt⟩)
include h0 ih

-- A later step adds its block's contribution to the sums over the blocks before.
theorem acc_step :
    (∀ (e : Fin 512) (d : Fin 256), k0_pay1 (F := Ideal) (k0_pay9 (iblk0 V c 0 t) (iblk0 V c 1 t) (iblk0 V c 2 t) (iblk0 V c 3 t)) (prev0 V c t).2.1 (ix2 e d)
      = upto (stepF (F1 V c) (F2 V c) (Wm V c) (Bv V c) (ptB t) (blkIx (ptO t) e) d) (t.val % 8))
    ∧ ∀ e : Fin 512, k0_pay2 (F := Ideal) (k0_pay8 (iblk0 V c 0 t) (iblk0 V c 1 t)) (prev0 V c t).2.2 (ix2 (0 : Fin 1) e)
      = upto (stepD (F1 V c) (F2 V c) (ptB t) (blkIx (ptO t) e)) (t.val % 8) := by
  have hb : ptB ⟨t.val - 1, Nat.lt_of_le_of_lt (Nat.sub_le _ _) t.isLt⟩ = ptB t := Fin.ext (by show (t.val - 1) / 64 = t.val / 64; omega)
  have ho : ptO ⟨t.val - 1, Nat.lt_of_le_of_lt (Nat.sub_le _ _) t.isLt⟩ = ptO t := Fin.ext (by show (t.val - 1) / 8 % 8 = t.val / 8 % 8; omega)
  have hr : t.val % 8 = (t.val - 1) % 8 + 1 := by omega
  have hlt : (t.val - 1) % 8 + 1 < 8 := by omega
  have htr : ptR t = ⟨(t.val - 1) % 8 + 1, hlt⟩ := Fin.ext hr
  obtain ⟨i1, i2⟩ := ih
  rw [hb, ho] at i1 i2
  refine ⟨fun e d => ?_, fun e => ?_⟩
  · rw [k0_pay1_apply, pay9_step (hblk0 V c t) (hblk1 V c t) (hblk2 V c t) (hblk3 V c t), hr, upto_succ _ _ hlt, htr]
    exact congrArg (· + _) (i1 e d)
  · rw [k0_pay2_apply, pay8_step (hblk0 V c t) (hblk1 V c t), hr, upto_succ _ _ hlt, htr]
    exact congrArg (· + _) (i2 e)

theorem inv_B (h1 : ¬t.val % 8 = 7) : Inv V c t := by
  unfold Inv
  rw [outsAt0_B V c t h0 h1]
  unfold at0_B outs0_B
  dsimp only
  rw [(piece_B ..).1, (piece_B ..).2]
  exact acc_step V c t h0 ih

theorem inv_C (h1 : t.val % 8 = 7) : Inv V c t := by
  unfold Inv
  rw [outsAt0_C V c t h0 h1]
  unfold at0_C outs0_C
  dsimp only
  rw [(piece_C ..).1, (piece_C ..).2.1]
  exact acc_step V c t h0 ih

end Later

theorem inv_all : ∀ (n : ℕ) (hn : n < cfg0.N), Inv V c ⟨n, hn⟩ := by
  intro n
  induction n with
  | zero => intro hn; exact inv_A V c ⟨0, hn⟩ (Nat.zero_mod _) (by show ¬0 % 8 = 7; decide)
  | succ n ih =>
    intro hn
    have ihn : Inv V c ⟨(⟨n + 1, hn⟩ : Fin cfg0.N).val - 1, Nat.lt_of_le_of_lt (Nat.sub_le _ _) hn⟩ := ih (Nat.lt_of_succ_lt hn)
    by_cases h0 : (n + 1) % 8 = 0
    · exact inv_A V c ⟨n + 1, hn⟩ h0 (by show ¬(n + 1) % 8 = 7; omega)
    · by_cases h1 : (n + 1) % 8 = 7
      · exact inv_C V c ⟨n + 1, hn⟩ h0 ihn h1
      · exact inv_B V c ⟨n + 1, hn⟩ h0 ihn h1

-- At a last step the stored block's entry (0, e, d) is the hyperedge feature of the point's batch at hyperedge e of its block.
theorem out_eq (h1 : t.val % 8 = 7) (z : Fin 1) (e : Fin 512) (d : Fin 256) (b : Fin 8) (v : Fin 4096)
    (hb : b.val = t.val / 64) (hv : v.val = 512 * (t.val / 8 % 8) + e.val) :
    ((outsAt0 V c t.val t.isLt).1 : Vec Ideal S1x512x256 .f32) (ix3 z e d) = E (F1 V c) (F2 V c) (Wm V c) (Bv V c) b v d := by
  have h0 : ¬t.val % 8 = 0 := by omega
  obtain rfl : b = ptB t := Fin.ext hb
  obtain rfl : v = blkIx (ptO t) e := Fin.ext hv
  obtain rfl : z = 0 := Subsingleton.elim _ _
  have ih : Inv V c ⟨t.val - 1, Nat.lt_of_le_of_lt (Nat.sub_le _ _) t.isLt⟩ := inv_all V c _ _
  rw [outsAt0_C V c t h0 h1]
  unfold at0_C outs0_C
  dsimp only
  rw [(piece_C ..).2.2, k0_pay3_apply, (acc_step V c t h0 ih).1, (acc_step V c t h0 ih).2, k0_pay7_apply, hblk1 V c t e d, h1, upto_seven, upto_seven, E_blocks]

theorem flushed_eq0 (h1 : t.val % 8 = 7) :
    (dat0 (F := Ideal) V c).flushed 4 t = ((cfg0.win 4).blk t).view.read (Elt Ideal) (ar3 (E (F1 V c) (F2 V c) (Wm V c) (Bv V c))) := by
  show (cfg0.win 4).cut (grid0.coords t) ((dat0 (F := Ideal) V c).after 4 t) = _
  rw [after0_4]
  obtain ⟨-, -, -, -, -, -, -, -, -, e0, e1, e2⟩ := idx_facts0 t
  funext j
  obtain ⟨z, e, d, rfl⟩ : ∃ (z : Fin 1) (e : Fin 512) (d : Fin 256), j = ix3 z e d := ⟨j 0, j 1, j 2, eq_ix3 j⟩
  rw [View.read_apply]
  show ((outsAt0 V c t.val t.isLt).1 : Vec Ideal S1x512x256 .f32) (ix3 z e d)
    = E (F1 V c) (F2 V c) (Wm V c) (Bv V c) ((((cfg0.win 4).blk t).view.emb (ix3 z e d)) 0) ((((cfg0.win 4).blk t).view.emb (ix3 z e d)) 1) ((((cfg0.win 4).blk t).view.emb (ix3 z e d)) 2)
  rw [show (((cfg0.win 4).blk t).view.emb (ix3 z e d)) 2 = d from Fin.ext (by show win0_4.index t (2 : Fin 3) * 256 + 1 * d.val = d.val; rw [e2]; omega)]
  exact out_eq V c t h1 z e d _ _ (by show win0_4.index t (0 : Fin 3) * 1 + 1 * z.val = t.val / 64; rw [e0]; omega) (by show win0_4.index t (1 : Fin 3) * 512 + 1 * e.val = 512 * (t.val / 8 % 8) + e.val; rw [e1]; omega)

theorem final0 :
    ((dat0 (F := Ideal) V c).arrAt 4 cfg0.N : S8x4096x256.Idx → EReal)
      = ar3 (E (co3 (V c main_arg1 : S8x4096x256.Idx → EReal)) (co3 (V c main_arg0 : S8x4096x256.Idx → EReal))
          (co2 (V c main_arg2 : S256x256.Idx → EReal)) (co1 (V c main_arg3 : S256.Idx → EReal))) :=
  (dat0 (F := Ideal) V c).arrAt_eq_of_cover 4 (ar3 (E (F1 V c) (F2 V c) (Wm V c) (Bv V c)))
    (fun t hf => flushed_eq0 V c t ((flush0_4 t).mp hf)) cover4

end Cert.KernelIdeal.HandValue

end
-- ==== Proof.KI.R1ValuePieces.lean ====
import proofs.«176735_j32615981646424_1_alg».proof.Proof.KI.R1Data
import proofs.«176735_j32615981646424_1_alg».proof.Proof.KI.HgPayload
import Idealize.ShloMosaic.Lib.Tactic

noncomputable section

open scoped BigOperators

namespace Cert.KernelIdeal.HandValue.R1

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat Cfg Window)

variable {F : FTy → Type} [FloatOps F]

variable (c : Dev nD) (i : grid1.Coords) (arg3 : Memref sig .tc .vmem S1x512x256 .f32) (harg3 : arg3.IsWhole) (arg4 : Memref sig .tc .vmem S1x512x256 .f32) (harg4 : arg4.IsWhole)
  (arg5 : Memref sig .tc .vmem S1x512x256 .f32) (harg5 : arg5.IsWhole) (arg6 : Memref sig .tc .vmem S1x512x256 .f32) (harg6 : arg6.IsWhole)
  (arg7 : Memref sig .tc .vmem S512x256 .f32) (harg7 : arg7.IsWhole) (arg8 : Memref sig .tc .vmem S512x1 .f32) (harg8 : arg8.IsWhole)

-- What each control case leaves: the accumulators' reset value or previous contents updated by the step, and at a last step the stored output.
section
variable (hc0 : cond1_0 i) (hc1 : ¬cond1_1 i) (x0 x1 x2 : Vec F S1x512x256 .f32)

theorem piece_A : sout1_A_0 c i arg3 harg3 arg4 harg4 arg5 harg5 arg6 harg6 arg7 harg7 arg8 harg8 hc0 hc1 x0 x1 x2 = k1_pay7 x0 x1 x2 (k1_pay3 (F := F))
    ∧ sout1_A_1 c i arg3 harg3 arg4 harg4 arg5 harg5 arg6 harg6 arg7 harg7 arg8 harg8 hc0 hc1 x0 x1 x2 = k1_pay1 (k1_pay6 x0 x1) (k1_pay4 (F := F)) := by
  unfold sout1_A_0 sout1_A_1
  rw [View.read_writes_eq_canon _ _ _ (fun _ => scover1_A_0 ..), View.read_writes_eq_canon _ _ _ (fun _ => scover1_A_1 ..)]
  unfold kernelRun1_A
  dsimp only
  sl_unfold_words
  rw [View.canon_cons_unit_zero (S := S512x256) hz2, View.canon_cons_unit_zero (S := S512x1) hz2]
  simp only [View.readAt_eq_ld, Memref.IsWhole.read_unread, View.ld_unit_zero (S := S1x512x256) hz3, View.ld_unit_zero (S := S512x256) hz2, View.ld_unit_zero (S := S512x1) hz2, View.readCov_unit_zero (S := S512x256) _ hz2, View.readCov_unit_zero (S := S512x1) _ hz2, and_self]

end

section
variable (hc0 : ¬cond1_0 i) (hc1 : ¬cond1_1 i) (x0 x1 x2 : Vec F S1x512x256 .f32) (xs0 : Vec F S512x256 .f32) (xs1 : Vec F S512x1 .f32)

theorem piece_B : sout1_B_0 c i arg3 harg3 arg4 harg4 arg5 harg5 arg6 harg6 arg7 harg7 arg8 harg8 hc0 hc1 x0 x1 x2 xs0 xs1 = k1_pay7 x0 x1 x2 xs0
    ∧ sout1_B_1 c i arg3 harg3 arg4 harg4 arg5 harg5 arg6 harg6 arg7 harg7 arg8 harg8 hc0 hc1 x0 x1 x2 xs0 xs1 = k1_pay1 (k1_pay6 x0 x1) xs1 := by
  unfold sout1_B_0 sout1_B_1
  rw [View.read_writes_eq_canon _ _ _ (fun _ => scover1_B_0 ..), View.read_writes_eq_canon _ _ _ (fun _ => scover1_B_1 ..)]
  unfold kernelRun1_B
  dsimp only
  sl_unfold_words
  rw [View.canon_unit_zero hz2, View.canon_unit_zero hz2]
  simp only [View.readAt_eq_ld, Memref.IsWhole.read_unread, View.ld_unit_zero (S := S1x512x256) hz3, View.ld_unit_zero (S := S512x256) hz2, View.ld_unit_zero (S := S512x1) hz2, View.readCov_unit_zero (S := S512x256) _ hz2, View.readCov_unit_zero (S := S512x1) _ hz2, and_self]

end

section
variable (hc0 : ¬cond1_0 i) (hc1 : cond1_1 i) (x0 x1 x2 : Vec F S1x512x256 .f32) (xs0 : Vec F S512x256 .f32) (xs1 : Vec F S512x1 .f32)

theorem piece_C : sout1_C_0 c i arg3 harg3 arg4 harg4 arg5 harg5 arg6 harg6 arg7 harg7 arg8 harg8 hc0 hc1 x0 x1 x2 xs0 xs1 = k1_pay7 x0 x1 x2 xs0
    ∧ sout1_C_1 c i arg3 harg3 arg4 harg4 arg5 harg5 arg6 harg6 arg7 harg7 arg8 harg8 hc0 hc1 x0 x1 x2 xs0 xs1 = k1_pay1 (k1_pay6 x0 x1) xs1
    ∧ out1_C_3 c i arg3 harg3 arg4 harg4 arg5 harg5 arg6 harg6 arg7 harg7 arg8 harg8 hc0 hc1 x0 x1 x2 xs0 xs1 = k1_pay2 (k1_pay5 x0) (k1_pay1 (k1_pay6 x0 x1) xs1) (k1_pay1 (k1_pay6 x0 x1) xs1) (k1_pay7 x0 x1 x2 xs0) := by
  unfold sout1_C_0 sout1_C_1 out1_C_3
  rw [View.read_writes_eq_canon _ _ _ (fun _ => scover1_C_0 ..), View.read_writes_eq_canon _ _ _ (fun _ => scover1_C_1 ..), View.read_writes_eq_canon _ _ _ (fun _ => cover1_C_3 ..)]
  unfold kernelRun1_C
  dsimp only
  sl_unfold_words
  rw [View.canon_unit_zero hz2, View.canon_unit_zero hz2, View.canon_unit_zero hz3]
  simp only [View.readAt_eq_ld, Memref.IsWhole.read_unread, View.ld_unit_zero (S := S1x512x256) hz3, View.ld_unit_zero (S := S512x256) hz2, View.ld_unit_zero (S := S512x1) hz2, View.readCov_unit_zero (S := S512x256) _ hz2, View.readCov_unit_zero (S := S512x1) _ hz2, and_self]

end

end Cert.KernelIdeal.HandValue.R1

end
-- ==== Proof.KI.R1ValuePay.lean ====
import proofs.«176735_j32615981646424_1_alg».proof.Proof.KI.HgPayload

noncomputable section

open scoped BigOperators

namespace Cert.KernelIdeal.HandValue.R1

open Cert.KernelIdeal Cert.KernelIdeal.Gen
open Idealize.ShloMosaic Idealize.ShloMosaic.ValueIdx
open Cert.Spec

theorem k1_pay3_apply (p : Fin 512) (d : Fin 256) : k1_pay3 (F := Ideal) (ix2 p d) = 0 := by
  unfold k1_pay3
  rw [shapeCast_self]
  exact Ideal.ofBits_zero_f32

theorem k1_pay4_apply (p : Fin 512) (u : Fin 1) : k1_pay4 (F := Ideal) (ix2 p u) = 0 := by
  unfold k1_pay4
  rw [shapeCast_self]
  exact Ideal.ofBits_zero_f32

theorem k1_pay5_apply (v3 : Vec Ideal S1x512x256 .f32) (p : Fin 512) (d : Fin 256) :
    k1_pay5 (F := Ideal) v3 (ix2 p d) = v3 (ix3 0 p d) :=
  shapeCast_1ab_ab_apply v3 _ p d

theorem k1_pay1_apply (v24 : FVec Ideal S512x512 .f32) (v35 : Vec Ideal S512x1 .f32) (p : Fin 512) (u : Fin 1) :
    k1_pay1 (F := Ideal) v24 v35 (ix2 p u) = v35 (ix2 p u) + ∑ r : Fin 512, v24 (ix2 p r) := by
  unfold k1_pay1
  rw [shapeCast_self]
  exact congrArg (v35 (ix2 p u) + ·) ((shapeCast_a_a1_apply _ _ p u).trans (rowSum_apply v24 _ _ _ p))

theorem mm_apply {φ₁ φ₂ : FTy} (prec : Option ContractPrecision) (a : FVec Ideal S512x512 φ₁) (b : FVec Ideal S512x256 φ₂) (p : Fin 512) (d : Fin 256) :
    FloatOps.matmul dot_S512x512_S512x256_S512x256_1_0_0_1_n_n prec a b (constant S512x256 .f32 0x00000000#32) (ix2 p d)
      = ∑ r : Fin 512, a (ix2 p r) * b (ix2 r d) :=
  matmul_ix2 _ rfl rfl _ a b p d _ _ (fun j a => by fin_cases a <;> rfl) (fun j a => by fin_cases a <;> rfl)

theorem k1_pay7_apply (v3 v5 v26 : Vec Ideal S1x512x256 .f32) (v30 : Vec Ideal S512x256 .f32) (p : Fin 512) (d : Fin 256) :
    k1_pay7 (F := Ideal) v3 v5 v26 v30 (ix2 p d)
      = v30 (ix2 p d) + ∑ r : Fin 512, k1_pay6 (F := Ideal) v3 v5 (ix2 p r) * v26 (ix3 0 r d) := by
  unfold k1_pay7
  rw [shapeCast_self]
  exact congrArg (v30 (ix2 p d) + ·) ((mm_apply none _ _ p d).trans
    (Finset.sum_congr rfl fun r _ => congrArg (k1_pay6 (F := Ideal) v3 v5 (ix2 p r) * ·) (shapeCast_1ab_ab_apply v26 _ r d)))

theorem k1_pay2_apply (v4 : FVec Ideal S512x256 .f32) (v46 v49 : Vec Ideal S512x1 .f32) (v54 : Vec Ideal S512x256 .f32) (hv : v49 = v46)
    (u : Fin 1) (p : Fin 512) (d : Fin 256) :
    k1_pay2 (F := Ideal) v4 v46 v49 v54 (ix3 u p d) = v54 (ix2 p d) * inv (v46 (ix2 p 0)) + v4 (ix2 p d) := by
  subst hv
  unfold k1_pay2
  refine (shapeCast_ab_1ab_apply _ _ u p d).trans (congrArg (· + v4 (ix2 p d)) (congrArg (v54 (ix2 p d) * ·) ?_))
  exact (broadcastTo_a1_ab_apply _ _ p d).trans (Cert.LibMask.inv_eq (v49 (ix2 p 0)))

end Cert.KernelIdeal.HandValue.R1

end
-- ==== Proof.KI.R1ValueInv.lean ====
import proofs.«176735_j32615981646424_1_alg».proof.Proof.KI.R1ValuePieces
import proofs.«176735_j32615981646424_1_alg».proof.Proof.KI.R1ValuePay

noncomputable section

open scoped BigOperators

namespace Cert.KernelIdeal.HandValue.R1

open Cert.KernelIdeal Cert.KernelIdeal.Gen Cert.KernelIdeal.Hand
open Idealize.ShloMosaic Idealize.ShloMosaic.TcCoe Idealize.ShloMosaic.ValueIdx Idealize.SL.Sem Idealize.ShloMosaic.Tactic
open Idealize.ShloMosaic.Pipeline (Dat Cfg Window)

open Cert.Spec

variable (V : (c : Dev nD) → (b : Ref sig .tc) → Buf (Elt Ideal) ((c : Thread nD τ).loc b))

abbrev nodeQ (c : Dev nD) : A3 := co3 (V c main_arg1 : S8x4096x256.Idx → EReal)
abbrev edgeQ (c : Dev nD) : A3 := co3 (V c main_arg0 : S8x4096x256.Idx → EReal)
abbrev edgeF (c : Dev nD) : A3 := co3 (V c main_v0 : S8x4096x256.Idx → EReal)

abbrev nblk (c : Dev nD) (t : Fin cfg1.N) : Vec Ideal S1x512x256 .f32 := iblk1 V c 0 t
abbrev eblk (c : Dev nD) (t : Fin cfg1.N) : Vec Ideal S1x512x256 .f32 := iblk1 V c 1 t
abbrev fblk (c : Dev nD) (t : Fin cfg1.N) : Vec Ideal S1x512x256 .f32 := iblk1 V c 2 t

def rowOf (j : ℕ) (p : Fin 512) : Fin 4096 := ⟨(512 * j + p.val) % 4096, Nat.mod_lt _ (by decide)⟩

def blockSum (f : Fin 4096 → EReal) (j : ℕ) : EReal := ∑ r : Fin 512, f (rowOf j r)

theorem sum8 (f : Fin 4096 → EReal) : ∑ j ∈ Finset.range 8, blockSum f j = ∑ e : Fin 4096, f e := by
  rw [Finset.sum_range, Cert.LibMask.sum_blocks8]
  refine Finset.sum_congr rfl fun j _ => Finset.sum_congr rfl fun r _ => congrArg f (Fin.ext ?_)
  show (512 * j.val + r.val) % 4096 = 512 * j.val + r.val
  have := j.isLt; have := r.isLt
  exact Nat.mod_eq_of_lt (by omega)

theorem idx_facts1 : ∀ t : Fin cfg1.N,
    (win1_0.index t (0 : Fin 3) = t.val / 64 ∧ win1_0.index t (1 : Fin 3) = (t.val / 8) % 8 ∧ win1_0.index t (2 : Fin 3) = 0)
    ∧ (win1_1.index t (0 : Fin 3) = t.val / 64 ∧ win1_1.index t (1 : Fin 3) = t.val % 8 ∧ win1_1.index t (2 : Fin 3) = 0)
    ∧ (win1_2.index t (0 : Fin 3) = t.val / 64 ∧ win1_2.index t (1 : Fin 3) = t.val % 8 ∧ win1_2.index t (2 : Fin 3) = 0)
    ∧ (win1_3.index t (0 : Fin 3) = t.val / 64 ∧ win1_3.index t (1 : Fin 3) = (t.val / 8) % 8 ∧ win1_3.index t (2 : Fin 3) = 0) :=
  (by decide +kernel : ∀ t : Fin grid1.N, _)

theorem nblk_apply (c : Dev nD) (t : Fin cfg1.N) (b v : Fin 8) (hb : b.val = t.val / 64) (hv : v.val = (t.val / 8) % 8)
    (p : Fin 512) (k : Fin 256) : nblk V c t (ix3 0 p k) = nodeQ V c b (rowOf v.val p) k := by
  obtain ⟨⟨e0, e1, e2⟩, -⟩ := idx_facts1 t
  unfold nblk iblk1
  rw [View.read_apply]
  show V c main_arg1 _ = V c main_arg1 _
  congr 1
  funext a
  apply Fin.ext
  have := b.isLt; have := v.isLt; have := p.isLt
  match a with
  | ⟨0, _⟩ => show win1_0.index t (0 : Fin 3) * 1 + 1 * 0 = b.val; rw [e0]; omega
  | ⟨1, _⟩ => show win1_0.index t (1 : Fin 3) * 512 + 1 * p.val = (512 * v.val + p.val) % 4096; rw [e1]; omega
  | ⟨2, _⟩ => show win1_0.index t (2 : Fin 3) * 256 + 1 * k.val = k.val; rw [e2]; omega

theorem eblk_apply (c : Dev nD) (t : Fin cfg1.N) (b : Fin 8) (hb : b.val = t.val / 64)
    (r : Fin 512) (k : Fin 256) : eblk V c t (ix3 0 r k) = edgeQ V c b (rowOf (t.val % 8) r) k := by
  obtain ⟨-, ⟨e0, e1, e2⟩, -⟩ := idx_facts1 t
  unfold eblk iblk1
  rw [View.read_apply]
  show V c main_arg0 _ = V c main_arg0 _
  congr 1
  funext a
  apply Fin.ext
  have := b.isLt; have := r.isLt
  match a with
  | ⟨0, _⟩ => show win1_1.index t (0 : Fin 3) * 1 + 1 * 0 = b.val; rw [e0]; omega
  | ⟨1, _⟩ => show win1_1.index t (1 : Fin 3) * 512 + 1 * r.val = (512 * (t.val % 8) + r.val) % 4096; rw [e1]; omega
  | ⟨2, _⟩ => show win1_1.index t (2 : Fin 3) * 256 + 1 * k.val = k.val; rw [e2]; omega

theorem fblk_apply (c : Dev nD) (t : Fin cfg1.N) (b : Fin 8) (hb : b.val = t.val / 64)
    (r : Fin 512) (k : Fin 256) : fblk V c t (ix3 0 r k) = edgeF V c b (rowOf (t.val % 8) r) k := by
  obtain ⟨-, -, ⟨e0, e1, e2⟩, -⟩ := idx_facts1 t
  unfold fblk iblk1
  rw [View.read_apply]
  show V c main_v0 _ = V c main_v0 _
  congr 1
  funext a
  apply Fin.ext
  have := b.isLt; have := r.isLt
  match a with
  | ⟨0, _⟩ => show win1_2.index t (0 : Fin 3) * 1 + 1 * 0 = b.val; rw [e0]; omega
  | ⟨1, _⟩ => show win1_2.index t (1 : Fin 3) * 512 + 1 * r.val = (512 * (t.val % 8) + r.val) % 4096; rw [e1]; omega
  | ⟨2, _⟩ => show win1_2.index t (2 : Fin 3) * 256 + 1 * k.val = k.val; rw [e2]; omega

theorem incid_apply (c : Dev nD) (t : Fin cfg1.N) (b v : Fin 8) (hb : b.val = t.val / 64) (hv : v.val = (t.val / 8) % 8) (p r : Fin 512) :
    k1_pay6 (F := Ideal) (nblk V c t) (eblk V c t) (ix2 p r)
      = hg (nodeQ V c) (edgeQ V c) b (rowOf v.val p) (rowOf (t.val % 8) r) := by
  rw [k1_pay6_apply]
  simp only [nblk_apply V c t b v hb hv, eblk_apply V c t b hb]
  rfl

theorem step_acc (c : Dev nD) (t : Fin cfg1.N) (b v : Fin 8) (hb : b.val = t.val / 64) (hv : v.val = (t.val / 8) % 8) (acc : Vec Ideal S512x256 .f32) (p : Fin 512) (d : Fin 256) :
    k1_pay7 (F := Ideal) (nblk V c t) (eblk V c t) (fblk V c t) acc (ix2 p d)
      = acc (ix2 p d) + blockSum (fun e => hg (nodeQ V c) (edgeQ V c) b (rowOf v.val p) e * edgeF V c b e d) (t.val % 8) := by
  rw [k1_pay7_apply]
  simp only [incid_apply V c t b v hb hv, fblk_apply V c t b hb]
  rfl

theorem step_deg (c : Dev nD) (t : Fin cfg1.N) (b v : Fin 8) (hb : b.val = t.val / 64) (hv : v.val = (t.val / 8) % 8) (deg : Vec Ideal S512x1 .f32) (p : Fin 512) (u : Fin 1) :
    k1_pay1 (F := Ideal) (k1_pay6 (F := Ideal) (nblk V c t) (eblk V c t)) deg (ix2 p u)
      = deg (ix2 p u) + blockSum (fun e => hg (nodeQ V c) (edgeQ V c) b (rowOf v.val p) e) (t.val % 8) := by
  rw [k1_pay1_apply]
  simp only [incid_apply V c t b v hb hv]
  rfl

theorem at_first (c : Dev nD) (t : Fin cfg1.N) (h0 : t.val % 8 = 0) (b v : Fin 8) (hb : b.val = t.val / 64) (hv : v.val = (t.val / 8) % 8) (p : Fin 512) :
    (∀ d : Fin 256, (outsAt1 V c t.val t.isLt).2.1 (ix2 p d) = blockSum (fun e => hg (nodeQ V c) (edgeQ V c) b (rowOf v.val p) e * edgeF V c b e d) 0)
    ∧ (outsAt1 V c t.val t.isLt).2.2 (ix2 p 0) = blockSum (fun e => hg (nodeQ V c) (edgeQ V c) b (rowOf v.val p) e) 0 := by
  have h1 : ¬t.val % 8 = 7 := by omega
  rw [outsAt1_A V c t h0 h1]
  unfold at1_A outs1_A
  dsimp only
  rw [(piece_A ..).1, (piece_A ..).2]
  constructor
  · intro d
    rw [step_acc V c t b v hb hv, k1_pay3_apply, zero_add, h0]
  · rw [step_deg V c t b v hb hv, k1_pay4_apply, zero_add, h0]

theorem at_later (c : Dev nD) (t : Fin cfg1.N) (h0 : ¬t.val % 8 = 0) (b v : Fin 8) (hb : b.val = t.val / 64) (hv : v.val = (t.val / 8) % 8) (p : Fin 512) :
    (∀ d : Fin 256, (outsAt1 V c t.val t.isLt).2.1 (ix2 p d) = (prev1 V c t).2.1 (ix2 p d) + blockSum (fun e => hg (nodeQ V c) (edgeQ V c) b (rowOf v.val p) e * edgeF V c b e d) (t.val % 8))
    ∧ (outsAt1 V c t.val t.isLt).2.2 (ix2 p 0) = (prev1 V c t).2.2 (ix2 p 0) + blockSum (fun e => hg (nodeQ V c) (edgeQ V c) b (rowOf v.val p) e) (t.val % 8) := by
  by_cases h1 : t.val % 8 = 7
  · rw [outsAt1_C V c t h0 h1]
    unfold at1_C outs1_C
    dsimp only
    rw [(piece_C ..).1, (piece_C ..).2.1]
    exact ⟨fun d => step_acc V c t b v hb hv _ p d, step_deg V c t b v hb hv _ p 0⟩
  · rw [outsAt1_B V c t h0 h1]
    unfold at1_B outs1_B
    dsimp only
    rw [(piece_B ..).1, (piece_B ..).2]
    exact ⟨fun d => step_acc V c t b v hb hv _ p d, step_deg V c t b v hb hv _ p 0⟩

theorem at_last_out (c : Dev nD) (t : Fin cfg1.N) (h1 : t.val % 8 = 7) (b v : Fin 8) (hb : b.val = t.val / 64) (hv : v.val = (t.val / 8) % 8) (u : Fin 1) (p : Fin 512) (d : Fin 256) :
    (outsAt1 V c t.val t.isLt).1 (ix3 u p d)
      = (outsAt1 V c t.val t.isLt).2.1 (ix2 p d) * inv ((outsAt1 V c t.val t.isLt).2.2 (ix2 p 0)) + nodeQ V c b (rowOf v.val p) d := by
  have h0 : ¬t.val % 8 = 0 := by omega
  rw [outsAt1_C V c t h0 h1]
  unfold at1_C outs1_C
  dsimp only
  rw [(piece_C ..).1, (piece_C ..).2.1, (piece_C ..).2.2, k1_pay2_apply _ _ _ _ rfl, k1_pay5_apply]
  exact congrArg (_ + ·) (nblk_apply V c t b v hb hv p d)

theorem inv1 (c : Dev nD) : ∀ (n : ℕ) (hn : n < cfg1.N) (b v : Fin 8) (hb : b.val = n / 64) (hv : v.val = (n / 8) % 8) (p : Fin 512),
    (∀ d : Fin 256, (outsAt1 V c n hn).2.1 (ix2 p d) = ∑ j ∈ Finset.range (n % 8 + 1), blockSum (fun e => hg (nodeQ V c) (edgeQ V c) b (rowOf v.val p) e * edgeF V c b e d) j)
    ∧ (outsAt1 V c n hn).2.2 (ix2 p 0) = ∑ j ∈ Finset.range (n % 8 + 1), blockSum (fun e => hg (nodeQ V c) (edgeQ V c) b (rowOf v.val p) e) j := by
  intro n
  induction n with
  | zero =>
    intro hn b v hb hv p
    obtain ⟨ha, hd⟩ := at_first V c ⟨0, hn⟩ rfl b v hb hv p
    rw [show (0 % 8 + 1) = 1 from rfl]
    exact ⟨fun d => (ha d).trans (Finset.sum_range_one _).symm, hd.trans (Finset.sum_range_one _).symm⟩
  | succ n ih =>
    intro hn b v hb hv p
    by_cases h0 : (n + 1) % 8 = 0
    · obtain ⟨ha, hd⟩ := at_first V c ⟨n + 1, hn⟩ h0 b v hb hv p
      rw [h0]
      exact ⟨fun d => (ha d).trans (Finset.sum_range_one _).symm, hd.trans (Finset.sum_range_one _).symm⟩
    · obtain ⟨ha, hd⟩ := at_later V c ⟨n + 1, hn⟩ h0 b v hb hv p
      obtain ⟨ia, id⟩ := ih (Nat.lt_of_succ_lt hn) b v (by omega) (by omega) p
      have he : (n + 1) % 8 = n % 8 + 1 := by omega
      rw [he]
      constructor
      · intro d
        rw [Finset.sum_range_succ]
        exact (ha d).trans (congrArg₂ (· + ·) (ia d) (congrArg (blockSum _) he))
      · rw [Finset.sum_range_succ]
        exact hd.trans (congrArg₂ (· + ·) id (congrArg (blockSum _) he))

theorem at_last_acc (c : Dev nD) (t : Fin cfg1.N) (h1 : t.val % 8 = 7) (b v : Fin 8) (hb : b.val = t.val / 64) (hv : v.val = (t.val / 8) % 8) (p : Fin 512) :
    (∀ d : Fin 256, (outsAt1 V c t.val t.isLt).2.1 (ix2 p d) = ∑ e : Fin 4096, hg (nodeQ V c) (edgeQ V c) b (rowOf v.val p) e * edgeF V c b e d)
    ∧ (outsAt1 V c t.val t.isLt).2.2 (ix2 p 0) = degV (nodeQ V c) (edgeQ V c) b (rowOf v.val p) := by
  obtain ⟨ia, id⟩ := inv1 V c t.val t.isLt b v hb hv p
  rw [h1] at ia id
  exact ⟨fun d => (ia d).trans (sum8 _), id.trans (sum8 _)⟩

theorem at_last_enh (c : Dev nD) (t : Fin cfg1.N) (h1 : t.val % 8 = 7) (b v : Fin 8) (hb : b.val = t.val / 64) (hv : v.val = (t.val / 8) % 8) (u : Fin 1) (p : Fin 512) (d : Fin 256) :
    (outsAt1 V c t.val t.isLt).1 (ix3 u p d) = enh (nodeQ V c) (edgeQ V c) (edgeF V c) b (rowOf v.val p) d := by
  obtain ⟨ia, id⟩ := at_last_acc V c t h1 b v hb hv p
  refine (at_last_out V c t h1 b v hb hv u p d).trans ?_
  rw [ia d, id]
  rfl

abbrev enhArr (c : Dev nD) : S8x4096x256.Idx → EReal := ar3 (enh (nodeQ V c) (edgeQ V c) (edgeF V c))

theorem out_block_eq (c : Dev nD) (t : Fin cfg1.N) (h1 : t.val % 8 = 7) (y : S1x512x256.Idx) :
    (outsAt1 V c t.val t.isLt).1 y = enhArr V c (((cfg1.win 3).blk t).view.emb y) := by
  obtain ⟨u, p, d, rfl⟩ : ∃ (u : Fin 1) (p : Fin 512) (d : Fin 256), y = ix3 u p d := ⟨y 0, y 1, y 2, eq_ix3 y⟩
  have hN : t.val < 512 := lt_of_lt_of_eq t.isLt N_1
  obtain ⟨-, -, -, ⟨e0, e1, e2⟩⟩ := idx_facts1 t
  have hemb : ((cfg1.win 3).blk t).view.emb (ix3 u p d)
      = ix3 (⟨t.val / 64, by omega⟩ : Fin 8) (rowOf ((t.val / 8) % 8) p) d := by
    funext a
    apply Fin.ext
    have := u.isLt; have := p.isLt
    match a with
    | ⟨0, _⟩ => show win1_3.index t (0 : Fin 3) * 1 + 1 * u.val = t.val / 64; rw [e0]; omega
    | ⟨1, _⟩ => show win1_3.index t (1 : Fin 3) * 512 + 1 * p.val = (512 * ((t.val / 8) % 8) + p.val) % 4096; rw [e1]; omega
    | ⟨2, _⟩ => show win1_3.index t (2 : Fin 3) * 256 + 1 * d.val = d.val; rw [e2]; omega
  rw [hemb]
  exact at_last_enh V c t h1 ⟨t.val / 64, by omega⟩ ⟨(t.val / 8) % 8, by omega⟩ rfl rfl u p d

theorem flushed_eq (c : Dev nD) (t : Fin cfg1.N) (hf : (cfg1.win 3).flush t = true) :
    (dat1 V c).flushed 3 t = ((cfg1.win 3).blk t).view.read (Elt Ideal) (enhArr V c) := by
  have h1 : t.val % 8 = 7 := (flush1_3 t).mp hf
  show (cfg1.win 3).cut (grid1.coords t) ((dat1 V c).after 3 t) = _
  rw [after1_3]
  funext y
  rw [View.read_apply]
  exact out_block_eq V c t h1 y

theorem covered (i : S8x4096x256.Idx) : ∃ t : Fin cfg1.N, (cfg1.win 3).flush t = true ∧ i ∈ ((cfg1.win 3).blk t).view.set := by
  have h0 : (i 0).val < 8 := (i 0).isLt
  have h1 : (i 1).val < 4096 := (i 1).isLt
  have h2 : (i 2).val < 256 := (i 2).isLt
  have hN : cfg1.N = 512 := N_1
  let t : Fin cfg1.N := ⟨64 * (i 0).val + 8 * ((i 1).val / 512) + 7, by omega⟩
  have ht : t.val = 64 * (i 0).val + 8 * ((i 1).val / 512) + 7 := rfl
  obtain ⟨-, -, -, ⟨e0, e1, e2⟩⟩ := idx_facts1 t
  refine ⟨t, (flush1_3 t).mpr (by omega), ?_⟩
  show i ∈ ((View.whole main_v1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 512 ≤ (i 1).val ∧ (i 1).val < win1_3.index t (1 : Fin 3) * 512 + 512; rw [e1]; omega
  | ⟨2, _⟩ => show win1_3.index t (2 : Fin 3) * 256 ≤ (i 2).val ∧ (i 2).val < win1_3.index t (2 : Fin 3) * 256 + 256; rw [e2]; omega

theorem arr_eq (c : Dev nD) : (dat1 V c).arrAt 3 cfg1.N = enhArr V c :=
  (dat1 V c).arrAt_eq_of_cover 3 (enhArr V c) (flushed_eq V c) covered

end Cert.KernelIdeal.HandValue.R1

end
-- ==== Proof.KI.R1Value.lean ====
import proofs.«176735_j32615981646424_1_alg».proof.Proof.KI.R1ValueInv

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

theorem final1 (c : Dev nD) :
    ((dat1 (F := Ideal) V c).arrAt 3 cfg1.N : S8x4096x256.Idx → EReal)
      = ar3 (enh (co3 (V c main_arg1 : S8x4096x256.Idx → EReal)) (co3 (V c main_arg0 : S8x4096x256.Idx → EReal))
          (co3 (V c main_v0 : S8x4096x256.Idx → EReal))) :=
  R1.arr_eq V c

end Cert.KernelIdeal.HandValue

end
-- ==== Proof.KI.R2ValuePiece.lean ====
import proofs.«176735_j32615981646424_1_alg».proof.Proof.KI.R2Data
import proofs.«176735_j32615981646424_1_alg».proof.Proof.KI.HgPayload
import Idealize.ShloMosaic.Lib.Tactic

noncomputable section

open scoped BigOperators

namespace Cert.KernelIdeal.HandValue.R2

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem out2_7_eq (c : Dev nD) (i : grid2.Coords) (arg2 : Memref sig .tc .vmem S1x1024x256 .f32) (harg2 : arg2.IsWhole) (arg3 : Memref sig .tc .vmem S1024x256 .f32) (harg3 : arg3.IsWhole) (arg4 : Memref sig .tc .vmem S1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S1x1024x256 .f32) (harg9 : arg9.IsWhole) (x0 : Vec F S1x1024x256 .f32) (x1 : Vec F S1024x256 .f32) (x2 : Vec F S1024 .f32) (x3 : Vec F S256x1024 .f32) (x4 x5 x6 : Vec F S256 .f32) :
    out2_7 c i arg2 harg2 arg3 harg3 arg4 harg4 arg5 harg5 arg6 harg6 arg7 harg7 arg8 harg8 arg9 harg9 x0 x1 x2 x3 x4 x5 x6 = k2_pay1 (k2_pay2 x0 x1 x2 x3 x4) x5 x6 := by
  unfold out2_7
  rw [View.read_writes_eq_canon _ _ _ (fun _ => cover2_7 ..)]
  unfold kernelRun2
  dsimp only
  sl_unfold_words
  rw [View.canon_unit_zero hz3]
  simp only [View.readAt_eq_ld, Memref.IsWhole.read_unread,
    View.ld_unit_zero (S := S1x1024x256) hz3, View.ld_unit_zero (S := S1024x256) hz2, View.ld_unit_zero (S := S256x1024) hz2, View.ld_unit_zero (S := S1024) hz1, View.ld_unit_zero (S := S256) hz1]

end Cert.KernelIdeal.HandValue.R2

end
-- ==== Proof.KI.R2ValuePay.lean ====
import proofs.«176735_j32615981646424_1_alg».proof.Proof.KI.HgPayload

noncomputable section

open scoped BigOperators

namespace Cert.KernelIdeal.HandValue.R2

open Cert.KernelIdeal Cert.KernelIdeal.Gen
open Idealize.ShloMosaic Idealize.ShloMosaic.ValueIdx
open Cert.Spec

theorem prod1_at (l : FVec Ideal S1024x256 .bf16) (r : FVec Ideal S1024x256 .bf16) (p f : Fin 1024) :
    matmul dot_S1024x256_S1024x256_S1024x1024_1_1_0_0_n_n none l r (constant (F := Ideal) S1024x1024 .f32 0x00000000#32) (ix2 p f) = ∑ k : Fin 256, l (ix2 p k) * r (ix2 f k) :=
  matmul_ix2 _ rfl rfl _ l r p f _ _ (fun j a => by fin_cases a <;> rfl) (fun j a => by fin_cases a <;> rfl)

theorem prod2_at (l : FVec Ideal S1024x1024 .bf16) (r : FVec Ideal S256x1024 .bf16) (p : Fin 1024) (d : Fin 256) :
    matmul dot_S1024x1024_S256x1024_S1024x256_1_1_0_0_n_n none l r (constant (F := Ideal) S1024x256 .f32 0x00000000#32) (ix2 p d) = ∑ k : Fin 1024, l (ix2 p k) * r (ix2 d k) :=
  matmul_ix2 _ rfl rfl _ l r p d _ _ (fun j a => by fin_cases a <;> rfl) (fun j a => by fin_cases a <;> rfl)

section Stages

variable (x0 : Vec Ideal S1x1024x256 .f32) (x1 : Vec Ideal S1024x256 .f32) (x2 : Vec Ideal S1024 .f32) (x3 : Vec Ideal S256x1024 .f32)
  (x4 x5 x6 : Vec Ideal S256 .f32)

def rows : FVec Ideal S1024x256 .f32 := shapeCast S1024x256 x0 shapeCasts_S1x1024x256_S1024x256
def hidden : FVec Ideal S1024x1024 .f32 :=
  maximumf (addf (matmul dot_S1024x256_S1024x256_S1024x1024_1_1_0_0_n_n none (truncf .bf16 (rows x0) bitsLt_bf16_f32) (truncf .bf16 x1 bitsLt_bf16_f32) (constant S1024x1024 .f32 0x00000000#32))
      (broadcastTo S1024x1024 (shapeCast S1x1024 x2 shapeCasts_S1024_S1x1024) broadcasts_S1x1024_S1024x1024))
    (broadcast S1024x1024 (Scalar.ofBits .f32 0x00000000#32))
def resid : FVec Ideal S1024x256 .f32 :=
  addf (rows x0) (addf (matmul dot_S1024x1024_S256x1024_S1024x256_1_1_0_0_n_n none (truncf .bf16 (hidden x0 x1 x2) bitsLt_bf16_f32) (truncf .bf16 x3 bitsLt_bf16_f32) (constant S1024x256 .f32 0x00000000#32))
    (broadcastTo S1024x256 (shapeCast S1x256 x4 shapeCasts_S256_S1x256) broadcasts_S1x256_S1024x256))
def meanCol : FVec Ideal S1024x1 .f32 :=
  divf (shapeCast S1024x1 (multiReduction .add [1] S1024 (resid x0 x1 x2 x3 x4) 0x00000000#32 reduces_S1024x256_S1024 (.inl rfl) rfl) shapeCasts_S1024_S1024x1)
    (broadcast S1024x1 (Scalar.ofBits .f32 0x43800000#32))
def centred : FVec Ideal S1024x256 .f32 := subf (resid x0 x1 x2 x3 x4) (broadcastTo S1024x256 (meanCol x0 x1 x2 x3 x4) broadcasts_S1024x1_S1024x256)
def varCol : FVec Ideal S1024x1 .f32 :=
  divf (shapeCast S1024x1 (multiReduction .add [1] S1024 (mulf (centred x0 x1 x2 x3 x4) (centred x0 x1 x2 x3 x4)) 0x00000000#32 reduces_S1024x256_S1024 (.inl rfl) rfl) shapeCasts_S1024_S1024x1)
    (broadcast S1024x1 (Scalar.ofBits .f32 0x43800000#32))
def normed : FVec Ideal S1024x256 .f32 :=
  mulf (centred x0 x1 x2 x3 x4) (broadcastTo S1024x256 (rsqrt (addf (varCol x0 x1 x2 x3 x4) (broadcast S1024x1 (Scalar.ofBits .f32 0x3727C5AC#32)))) broadcasts_S1024x1_S1024x256)
def stored (v : FVec Ideal S1024x256 .f32) : FVec Ideal S1x1024x256 .f32 :=
  shapeCast S1x1024x256 (addf (mulf v (broadcastTo S1024x256 (shapeCast S1x256 x5 shapeCasts_S256_S1x256) broadcasts_S1x256_S1024x256))
    (broadcastTo S1024x256 (shapeCast S1x256 x6 shapeCasts_S256_S1x256) broadcasts_S1x256_S1024x256)) shapeCasts_S1024x256_S1x1024x256

theorem pay2_eq : k2_pay2 x0 x1 x2 x3 x4 = normed x0 x1 x2 x3 x4 := rfl
theorem pay1_eq (v : FVec Ideal S1024x256 .f32) : k2_pay1 v x5 x6 = stored x5 x6 v := rfl

theorem rows_at (p : Fin 1024) (k : Fin 256) : rows x0 (ix2 p k) = x0 (ix3 (0 : Fin 1) p k) :=
  shapeCast_1ab_ab_apply x0 shapeCasts_S1x1024x256_S1024x256 p k

variable (X : A3) (b : Fin 8) (n : Fin 4096) (p : Fin 1024) (hx : ∀ k : Fin 256, x0 (ix3 (0 : Fin 1) p k) = X b n k)
include hx

theorem hidden_at (f : Fin 1024) :
    hidden x0 x1 x2 (ix2 p f) = hid X (co2 x1) (co1 x2) b n f := by
  unfold hidden
  rw [maximumf_apply, addf_apply, prod1_at, broadcast_apply, broadcastTo_1b_ab_apply, shapeCast_a_1a_apply]
  simp only [truncf_apply, rows_at, hx]
  rfl

theorem resid_at (d : Fin 256) :
    resid x0 x1 x2 x3 x4 (ix2 p d) = (q X (co2 x1) (co1 x2) (co2 x3) (co1 x4)) b n d := by
  unfold resid
  rw [addf_apply, addf_apply, prod2_at, broadcastTo_1b_ab_apply, shapeCast_a_1a_apply, rows_at, hx]
  simp only [truncf_apply, hidden_at x0 x1 x2 X b n p hx]
  rfl

theorem mean_at (u : Fin 1) :
    meanCol x0 x1 x2 x3 x4 (ix2 p u) = mu (q X (co2 x1) (co1 x2) (co2 x3) (co1 x4)) b n := by
  unfold meanCol
  rw [divf_apply, broadcast_apply, shapeCast_a_a1_apply]
  refine (congrArg (fun z => Ideal.div z (FloatOps.ofBits (F := Ideal) .f32 0x43800000#32)) (rowSum_apply (resid x0 x1 x2 x3 x4) _ _ _ p)).trans ?_
  simp only [resid_at x0 x1 x2 x3 x4 X b n p hx]
  rfl

theorem centred_at (d : Fin 256) :
    centred x0 x1 x2 x3 x4 (ix2 p d) = (q X (co2 x1) (co1 x2) (co2 x3) (co1 x4)) b n d - mu (q X (co2 x1) (co1 x2) (co2 x3) (co1 x4)) b n := by
  unfold centred
  rw [subf_apply, broadcastTo_a1_ab_apply, resid_at x0 x1 x2 x3 x4 X b n p hx, mean_at x0 x1 x2 x3 x4 X b n p hx]

theorem var_at (u : Fin 1) :
    varCol x0 x1 x2 x3 x4 (ix2 p u) = var (q X (co2 x1) (co1 x2) (co2 x3) (co1 x4)) b n := by
  unfold varCol
  rw [divf_apply, broadcast_apply, shapeCast_a_a1_apply]
  refine (congrArg (fun z => Ideal.div z (FloatOps.ofBits (F := Ideal) .f32 0x43800000#32)) (rowSum_apply (mulf (centred x0 x1 x2 x3 x4) (centred x0 x1 x2 x3 x4)) _ _ _ p)).trans ?_
  simp only [mulf_apply, centred_at x0 x1 x2 x3 x4 X b n p hx]
  rfl

theorem normed_at (d : Fin 256) :
    normed x0 x1 x2 x3 x4 (ix2 p d) = ((q X (co2 x1) (co1 x2) (co2 x3) (co1 x4)) b n d - mu (q X (co2 x1) (co1 x2) (co2 x3) (co1 x4)) b n) * Ideal.rsqrt (var (q X (co2 x1) (co1 x2) (co2 x3) (co1 x4)) b n + eps) := by
  unfold normed
  rw [mulf_apply, broadcastTo_a1_ab_apply, centred_at x0 x1 x2 x3 x4 X b n p hx]
  show _ * Ideal.rsqrt (addf (varCol x0 x1 x2 x3 x4) (broadcast S1024x1 (Scalar.ofBits .f32 0x3727C5AC#32)) (ix2 p (0 : Fin 1))) = _
  rw [addf_apply, broadcast_apply, var_at x0 x1 x2 x3 x4 X b n p hx]
  rfl

theorem pay_at (u : Fin 1) (d : Fin 256) :
    k2_pay1 (k2_pay2 x0 x1 x2 x3 x4) x5 x6 (ix3 u p d) = ffn X (co2 x1) (co1 x2) (co2 x3) (co1 x4) (co1 x5) (co1 x6) b n d := by
  rw [pay2_eq, pay1_eq]
  unfold stored
  rw [shapeCast_ab_1ab_apply, addf_apply, mulf_apply, broadcastTo_1b_ab_apply, broadcastTo_1b_ab_apply, shapeCast_a_1a_apply, shapeCast_a_1a_apply,
    normed_at x0 x1 x2 x3 x4 X b n p hx]
  rfl

end Stages

end Cert.KernelIdeal.HandValue.R2

end
-- ==== Proof.KI.R2Value.lean ====
import proofs.«176735_j32615981646424_1_alg».proof.Proof.KI.R2ValuePiece
import proofs.«176735_j32615981646424_1_alg».proof.Proof.KI.R2ValuePay

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

namespace R2

theorem idx_facts : ∀ t : Fin cfg2.N,
    win2_0.index t (0 : Fin 3) = t.val / 4 ∧ win2_0.index t (1 : Fin 3) = t.val % 4 ∧ win2_0.index t (2 : Fin 3) = 0
    ∧ win2_7.index t (0 : Fin 3) = t.val / 4 ∧ win2_7.index t (1 : Fin 3) = t.val % 4 ∧ win2_7.index t (2 : Fin 3) = 0 :=
  (by decide +kernel : ∀ t : Fin grid2.N, _)

def bOf (t : Fin cfg2.N) : Fin 8 := ⟨t.val / 4, by have := t.isLt; have hN : cfg2.N = 32 := N_2; omega⟩
def nOf (t : Fin cfg2.N) (p : Fin 1024) : Fin 4096 := ⟨(t.val % 4) * 1024 + p.val, by have := p.isLt; omega⟩

theorem blk0_at (c : Dev nD) (t : Fin cfg2.N) (u : Fin 1) (p : Fin 1024) (k : Fin 256) :
    (iblk2 V c 0 t : Vec Ideal S1x1024x256 .f32) (ix3 u p k) = co3 (V c main_v1 : S8x4096x256.Idx → EReal) (bOf t) (nOf t p) k := by
  obtain ⟨e0, e1, e2, -⟩ := idx_facts t
  unfold iblk2
  rw [View.read_apply]
  show (V c main_v1 : S8x4096x256.Idx → EReal) _ = (V c main_v1 : S8x4096x256.Idx → EReal) (ix3 (bOf t) (nOf t p) k)
  refine congrArg _ (funext fun a => Fin.ext ?_)
  match a with
  | ⟨0, _⟩ => show win2_0.index t (0 : Fin 3) * 1 + 1 * u.val = t.val / 4; have := u.isLt; omega
  | ⟨1, _⟩ => show win2_0.index t (1 : Fin 3) * 1024 + 1 * p.val = (t.val % 4) * 1024 + p.val; omega
  | ⟨2, _⟩ => show win2_0.index t (2 : Fin 3) * 256 + 1 * k.val = k.val; omega

-- The weights, biases, scale and shift come whole: their block index is zero on every axis at every point.
theorem idx_zero : ∀ t : Fin cfg2.N, (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) :=
  (by decide +kernel : ∀ t : Fin grid2.N, _)

theorem blk1 (c : Dev nD) (t : Fin cfg2.N) : (iblk2 V c 1 t : Vec Ideal S1024x256 .f32) = (V c main_arg4 : S1024x256.Idx → EReal) := by
  funext y
  unfold iblk2
  rw [View.read_apply]
  exact congrArg (V c main_arg4 : S1024x256.Idx → EReal) (funext fun a => Fin.ext (win2_1.rect_emb_val_of_index_zero t a ((idx_zero t).1 a) y))
theorem blk2 (c : Dev nD) (t : Fin cfg2.N) : (iblk2 V c 2 t : Vec Ideal S1024 .f32) = (V c main_arg5 : S1024.Idx → EReal) := by
  funext y
  unfold iblk2
  rw [View.read_apply]
  exact congrArg (V c main_arg5 : S1024.Idx → EReal) (funext fun a => Fin.ext (win2_2.rect_emb_val_of_index_zero t a ((idx_zero t).2.1 a) y))
theorem blk3 (c : Dev nD) (t : Fin cfg2.N) : (iblk2 V c 3 t : Vec Ideal S256x1024 .f32) = (V c main_arg6 : S256x1024.Idx → EReal) := by
  funext y
  unfold iblk2
  rw [View.read_apply]
  exact congrArg (V c main_arg6 : S256x1024.Idx → EReal) (funext fun a => Fin.ext (win2_3.rect_emb_val_of_index_zero t a ((idx_zero t).2.2.1 a) y))
theorem blk4 (c : Dev nD) (t : Fin cfg2.N) : (iblk2 V c 4 t : Vec Ideal S256 .f32) = (V c main_arg7 : S256.Idx → EReal) := by
  funext y
  unfold iblk2
  rw [View.read_apply]
  exact congrArg (V c main_arg7 : S256.Idx → EReal) (funext fun a => Fin.ext (win2_4.rect_emb_val_of_index_zero t a ((idx_zero t).2.2.2.1 a) y))
theorem blk5 (c : Dev nD) (t : Fin cfg2.N) : (iblk2 V c 5 t : Vec Ideal S256 .f32) = (V c main_arg8 : S256.Idx → EReal) := by
  funext y
  unfold iblk2
  rw [View.read_apply]
  exact congrArg (V c main_arg8 : S256.Idx → EReal) (funext fun a => Fin.ext (win2_5.rect_emb_val_of_index_zero t a ((idx_zero t).2.2.2.2.1 a) y))
theorem blk6 (c : Dev nD) (t : Fin cfg2.N) : (iblk2 V c 6 t : Vec Ideal S256 .f32) = (V c main_arg9 : S256.Idx → EReal) := by
  funext y
  unfold iblk2
  rw [View.read_apply]
  exact congrArg (V c main_arg9 : S256.Idx → EReal) (funext fun a => Fin.ext (win2_6.rect_emb_val_of_index_zero t a ((idx_zero t).2.2.2.2.2 a) y))

abbrev G (c : Dev nD) : S8x4096x256.Idx → EReal :=
  ar3 (ffn (co3 (V c main_v1 : S8x4096x256.Idx → EReal)) (co2 (V c main_arg4 : S1024x256.Idx → EReal)) (co1 (V c main_arg5 : S1024.Idx → EReal))
    (co2 (V c main_arg6 : S256x1024.Idx → EReal)) (co1 (V c main_arg7 : S256.Idx → EReal)) (co1 (V c main_arg8 : S256.Idx → EReal))
    (co1 (V c main_arg9 : S256.Idx → EReal)))

theorem outAt2_at (c : Dev nD) (t : Fin cfg2.N) (y : S1x1024x256.Idx) (i : S8x4096x256.Idx)
    (h0 : (i 0).val = t.val / 4) (h1 : (i 1).val = (t.val % 4) * 1024 + (y 1).val) (h2 : (i 2).val = (y 2).val) :
    (outAt2 V c t : Vec Ideal S1x1024x256 .f32) y = G V c i := by
  obtain ⟨u, p, d, rfl⟩ : ∃ (u : Fin 1) (p : Fin 1024) (d : Fin 256), y = ix3 u p d := ⟨y 0, y 1, y 2, eq_ix3 y⟩
  have hi : i = ix3 (bOf t) (nOf t p) d := funext fun a => Fin.ext (by
    match a with
    | ⟨0, _⟩ => exact h0
    | ⟨1, _⟩ => exact h1
    | ⟨2, _⟩ => exact h2)
  rw [hi]
  unfold outAt2
  rw [out2_7_eq, pay_at _ _ _ _ _ _ _ _ _ _ p (fun k => blk0_at V c t (0 : Fin 1) p k)]
  rw [blk1 V c t, blk2 V c t, blk3 V c t, blk4 V c t, blk5 V c t, blk6 V c t]
  rfl

theorem flushed_eq (c : Dev nD) (t : Fin cfg2.N) :
    (dat2 (F := Ideal) V c).flushed 7 t = ((cfg2.win 7).blk t).view.read (Elt Ideal) (G V c) := by
  obtain ⟨-, -, -, e0, e1, e2⟩ := idx_facts t
  show (cfg2.win 7).cut (grid2.coords t) ((dat2 V c).after 7 t) = _
  rw [after2_7]
  funext y
  show (outAt2 V c t : Vec Ideal S1x1024x256 .f32) y = G V c (((cfg2.win 7).blk t).view.emb y)
  refine outAt2_at V c t y _ ?_ ?_ ?_
  · show win2_7.index t (0 : Fin 3) * 1 + 1 * (y 0).val = t.val / 4
    have hy : (y 0).val < 1 := (y 0).isLt
    omega
  · show win2_7.index t (1 : Fin 3) * 1024 + 1 * (y 1).val = (t.val % 4) * 1024 + (y 1).val
    omega
  · show win2_7.index t (2 : Fin 3) * 256 + 1 * (y 2).val = (y 2).val
    omega

end R2

theorem final2 (c : Dev nD) :
    ((dat2 (F := Ideal) V c).arrAt 7 cfg2.N : S8x4096x256.Idx → EReal)
      = ar3 (ffn (co3 (V c main_v1 : S8x4096x256.Idx → EReal)) (co2 (V c main_arg4 : S1024x256.Idx → EReal)) (co1 (V c main_arg5 : S1024.Idx → EReal))
          (co2 (V c main_arg6 : S256x1024.Idx → EReal)) (co1 (V c main_arg7 : S256.Idx → EReal)) (co1 (V c main_arg8 : S256.Idx → EReal))
          (co1 (V c main_arg9 : S256.Idx → EReal))) :=
  (dat2 (F := Ideal) V c).arrAt_eq_of_cover 7 (R2.G V c) (fun t _ => R2.flushed_eq V c t) fun i => by
    have h0 : (i 0).val < 8 := (i 0).isLt
    have h1 : (i 1).val < 4096 := (i 1).isLt
    have h2 : (i 2).val < 256 := (i 2).isLt
    have hN : cfg2.N = 32 := N_2
    let t : Fin cfg2.N := ⟨(i 0).val * 4 + (i 1).val / 1024, by omega⟩
    have ht : t.val = (i 0).val * 4 + (i 1).val / 1024 := rfl
    obtain ⟨-, -, -, e0, e1, e2⟩ := R2.idx_facts t
    refine ⟨t, flush2_7 _, ?_⟩
    show i ∈ ((View.whole main_v2).slice (win2_7.rect t)).set
    rw [View.set_slice_whole, Rect.mem_set_unit]
    intro a
    match a with
    | ⟨0, _⟩ => show win2_7.index t (0 : Fin 3) * 1 ≤ (i 0).val ∧ (i 0).val < win2_7.index t (0 : Fin 3) * 1 + 1; rw [e0]; omega
    | ⟨1, _⟩ => show win2_7.index t (1 : Fin 3) * 1024 ≤ (i 1).val ∧ (i 1).val < win2_7.index t (1 : Fin 3) * 1024 + 1024; rw [e1]; omega
    | ⟨2, _⟩ => show win2_7.index t (2 : Fin 3) * 256 ≤ (i 2).val ∧ (i 2).val < win2_7.index t (2 : Fin 3) * 256 + 256; rw [e2]; omega

end Cert.KernelIdeal.HandValue

end
-- ==== Proof.RefRun.lean ====
import proofs.«176735_j32615981646424_1_alg».proof.Defs
import proofs.«176735_j32615981646424_1_alg».proof.Proof.Gen.ReferenceIdeal
import proofs.«176735_j32615981646424_1_alg».proof.Proof.Gen.Pre_finite_inputs
import proofs.«176735_j32615981646424_1_alg».proof.Proof.RefRunP

noncomputable section

open Idealize.ShloMosaic Idealize.ShloMosaic.TcCoe Idealize.SL.Sem

namespace Cert.Proof.RefClaims

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefClaims

end
-- ==== Proof.RefStages.lean ====
import proofs.«176735_j32615981646424_1_alg».proof.Proof.RefReadP
import proofs.«176735_j32615981646424_1_alg».proof.Proof.Spec
import proofs.«176735_j32615981646424_1_alg».proof.Proof.LibMask

noncomputable section

open scoped BigOperators

namespace Cert.RefStages

open Cert.ReferenceIdeal Cert.ReferenceIdeal.Gen Cert.ReferenceIdeal.ReadP Idealize.ShloMosaic Idealize.ShloMosaic.ValueIdx Cert.Spec

variable (x0 x1 : (⟨S8x4096x256, .f32⟩ : BufTy).Contents (Elt Ideal)) (x2 : (⟨S256x256, .f32⟩ : BufTy).Contents (Elt Ideal)) (x3 : (⟨S256, .f32⟩ : BufTy).Contents (Elt Ideal))

theorem ei_v1 (b : Fin 8) (v : Fin 4096) (k : Fin 256) : idx_main_v1 (ix2 b v) k = ix3 b v k :=
  funext fun a => Fin.ext (by match a with | ⟨0, _⟩ => rfl | ⟨1, _⟩ => rfl | ⟨2, _⟩ => rfl)

theorem ei_v4 (b : Fin 8) (e : Fin 4096) (k : Fin 256) : idx_main_v4 (ix2 b e) k = ix3 b e k :=
  funext fun a => Fin.ext (by match a with | ⟨0, _⟩ => rfl | ⟨1, _⟩ => rfl | ⟨2, _⟩ => rfl)

theorem v1_eq (b : Fin 8) (v : Fin 4096) : val_main_v1 (F := Ideal) x1 (ix2 b v) = sqn (co3 x1) b v := by
  rw [val_main_v1_apply, val_main_cst_apply]
  simp only [val_main_v0_apply, ei_v1, Ideal.ofBits_def, Ideal.ofBits_zero_f32, zero_add, Ideal.mulf_def]
  rfl

theorem v4_eq (b : Fin 8) (e : Fin 4096) : val_main_v4 (F := Ideal) x0 (ix2 b e) = sqn (co3 x0) b e := by
  rw [val_main_v4_apply, val_main_cst_0_apply]
  simp only [val_main_v3_apply, ei_v4, Ideal.ofBits_def, Ideal.ofBits_zero_f32, zero_add, Ideal.mulf_def]
  rfl

theorem el_v9 (b : Fin 8) (v e : Fin 4096) (k : Fin 256) : lidx_main_v9 (ix3 b v e) k = ix3 b v k :=
  funext fun a => Fin.ext (by match a with | ⟨0, _⟩ => rfl | ⟨1, _⟩ => rfl | ⟨2, _⟩ => rfl)

theorem er_v9 (b : Fin 8) (v e : Fin 4096) (k : Fin 256) : ridx_main_v9 (ix3 b v e) k = ix3 b e k :=
  funext fun a => Fin.ext (by match a with | ⟨0, _⟩ => rfl | ⟨1, _⟩ => rfl | ⟨2, _⟩ => rfl)

theorem v9_eq (b : Fin 8) (v e : Fin 4096) : val_main_v9 (F := Ideal) x0 x1 (ix3 b v e) = cross (co3 x1) (co3 x0) b v e := by
  rw [val_main_v9_apply]
  simp only [el_v9, er_v9]
  rfl

theorem ei_v6 (b : Fin 8) (v e : Fin 4096) : idx_main_v2 (idx_main_v6 (ix3 b v e)) = ix2 b v :=
  funext fun a => Fin.ext (by match a with | ⟨0, _⟩ => rfl | ⟨1, _⟩ => rfl)

theorem ei_v7 (b : Fin 8) (v e : Fin 4096) : idx_main_v5 (idx_main_v7 (ix3 b v e)) = ix2 b e :=
  funext fun a => Fin.ext (by match a with | ⟨0, _⟩ => rfl | ⟨1, _⟩ => rfl)

theorem v12_eq (b : Fin 8) (v e : Fin 4096) : val_main_v12 (F := Ideal) x0 x1 (ix3 b v e) = sqd (co3 x1) (co3 x0) b v e := by
  rw [val_main_v12_apply, val_main_v8_apply, val_main_v6_apply, val_main_v2_apply, val_main_v7_apply, val_main_v5_apply,
    val_main_v11_apply, val_main_v10_apply, val_main_cst_1_apply, ei_v6, ei_v7, v1_eq, v4_eq, v9_eq]
  rfl

theorem hg_eq (b : Fin 8) (v e : Fin 4096) : val_main_v18 (F := Ideal) x0 x1 (ix3 b v e) = hg (co3 x1) (co3 x0) b v e := by
  rw [val_main_v18_apply, val_main_v17_apply, val_main_v15_apply, val_main_v14_apply, val_main_v13_apply, val_main_cst_2_apply,
    val_main_v16_apply, val_main_cst_3_apply, v12_eq, Cert.LibMask.mask_unsigned]
  exact if_congr (Cert.LibMask.sqrt_max_lt_iff _) rfl rfl

theorem el_v19 (b : Fin 8) (v : Fin 4096) (d k : Fin 256) : lidx_main_v19 (ix3 b v d) k = ix3 b v k :=
  funext fun a => Fin.ext (by match a with | ⟨0, _⟩ => rfl | ⟨1, _⟩ => rfl | ⟨2, _⟩ => rfl)

theorem er_v19 (b : Fin 8) (v : Fin 4096) (d k : Fin 256) : ridx_main_v19 (ix3 b v d) k = ix2 d k :=
  funext fun a => Fin.ext (by match a with | ⟨0, _⟩ => rfl | ⟨1, _⟩ => rfl)

theorem ei_v21 (b : Fin 8) (v : Fin 4096) (d : Fin 256) : idx_main_v20 (idx_main_v21 (ix3 b v d)) = ix1 d :=
  funext fun a => Fin.ext (by match a with | ⟨0, _⟩ => rfl)

theorem X_eq (b : Fin 8) (v : Fin 4096) (d : Fin 256) : val_main_v22 (F := Ideal) x1 x2 x3 (ix3 b v d) = X (co3 x1) (co2 x2) (co1 x3) b v d := by
  rw [val_main_v22_apply, val_main_v19_apply, val_main_v21_apply, val_main_v20_apply, ei_v21]
  simp only [el_v19, er_v19]
  rfl

theorem ei_v25 (b : Fin 8) (e k : Fin 4096) : idx_main_v23 (idx_main_v25 (ix2 b e) k) = ix3 b k e :=
  funext fun a => Fin.ext (by match a with | ⟨0, _⟩ => rfl | ⟨1, _⟩ => rfl | ⟨2, _⟩ => rfl)

theorem v25_eq (b : Fin 8) (e : Fin 4096) : val_main_v25 (F := Ideal) x0 x1 (ix2 b e) = degE (co3 x1) (co3 x0) b e := by
  rw [val_main_v25_apply, val_main_cst_4_apply]
  simp only [val_main_v23_apply, ei_v25, hg_eq, Ideal.ofBits_def, Ideal.ofBits_zero_f32, zero_add]
  rfl

theorem ei_v32 (b : Fin 8) (e : Fin 4096) (d : Fin 256) : idx_main_v26 (idx_main_v32 (ix3 b e d)) = ix2 b e :=
  funext fun a => Fin.ext (by match a with | ⟨0, _⟩ => rfl | ⟨1, _⟩ => rfl)

theorem v32_eq (b : Fin 8) (e : Fin 4096) (d : Fin 256) : val_main_v32 (F := Ideal) x0 x1 (ix3 b e d) = inv (degE (co3 x1) (co3 x0) b e) := by
  rw [val_main_v32_apply, val_main_v31_apply, val_main_v28_apply, val_main_v30_apply, val_main_v26_apply, val_main_v27_apply,
    val_main_cst_5_apply, val_main_v29_apply, val_main_cst_6_apply, val_main_call0_v1_apply, val_main_call0_v0_apply,
    val_main_cst_7_apply, ei_v32, v25_eq]
  exact Cert.LibMask.inv_eq _

theorem el_v24 (b : Fin 8) (e : Fin 4096) (d : Fin 256) (k : Fin 4096) : idx_main_v23 (lidx_main_v24 (ix3 b e d) k) = ix3 b k e :=
  funext fun a => Fin.ext (by match a with | ⟨0, _⟩ => rfl | ⟨1, _⟩ => rfl | ⟨2, _⟩ => rfl)

theorem er_v24 (b : Fin 8) (e : Fin 4096) (d : Fin 256) (k : Fin 4096) : ridx_main_v24 (ix3 b e d) k = ix3 b k d :=
  funext fun a => Fin.ext (by match a with | ⟨0, _⟩ => rfl | ⟨1, _⟩ => rfl | ⟨2, _⟩ => rfl)

theorem v24_eq (b : Fin 8) (e : Fin 4096) (d : Fin 256) :
    val_main_v24 (F := Ideal) x0 x1 x2 x3 (ix3 b e d) = ∑ v : Fin 4096, hg (co3 x1) (co3 x0) b v e * X (co3 x1) (co2 x2) (co1 x3) b v d := by
  rw [val_main_v24_apply]
  simp only [val_main_v23_apply, el_v24, er_v24, hg_eq, X_eq]

theorem E_apply (b : Fin 8) (e : Fin 4096) (d : Fin 256) :
    val_main_v34 (F := Ideal) x0 x1 x2 x3 (ix3 b e d) = E (co3 x1) (co3 x0) (co2 x2) (co1 x3) b e d := by
  rw [val_main_v34_apply, val_main_v33_apply, v32_eq, v24_eq, Ideal.addf_def, Ideal.mulf_def, mul_comm]
  rfl

theorem E_eq : val_main_v34 (F := Ideal) x0 x1 x2 x3 = ar3 (E (co3 x1) (co3 x0) (co2 x2) (co1 x3)) :=
  funext fun i => (congrArg (val_main_v34 (F := Ideal) x0 x1 x2 x3) (eq_ix3 i)).trans (E_apply x0 x1 x2 x3 (i 0) (i 1) (i 2))

theorem ei_v36 (b : Fin 8) (v k : Fin 4096) : idx_main_v36 (ix2 b v) k = ix3 b v k :=
  funext fun a => Fin.ext (by match a with | ⟨0, _⟩ => rfl | ⟨1, _⟩ => rfl | ⟨2, _⟩ => rfl)

theorem v36_eq (b : Fin 8) (v : Fin 4096) : val_main_v36 (F := Ideal) x0 x1 (ix2 b v) = degV (co3 x1) (co3 x0) b v := by
  rw [val_main_v36_apply, val_main_cst_8_apply]
  simp only [ei_v36, hg_eq, Ideal.ofBits_def, Ideal.ofBits_zero_f32, zero_add]
  rfl

theorem ei_v43 (b : Fin 8) (v : Fin 4096) (d : Fin 256) : idx_main_v37 (idx_main_v43 (ix3 b v d)) = ix2 b v :=
  funext fun a => Fin.ext (by match a with | ⟨0, _⟩ => rfl | ⟨1, _⟩ => rfl)

theorem v43_eq (b : Fin 8) (v : Fin 4096) (d : Fin 256) : val_main_v43 (F := Ideal) x0 x1 (ix3 b v d) = inv (degV (co3 x1) (co3 x0) b v) := by
  rw [val_main_v43_apply, val_main_v42_apply, val_main_v39_apply, val_main_v41_apply, val_main_v37_apply, val_main_v38_apply,
    val_main_cst_9_apply, val_main_v40_apply, val_main_cst_10_apply, val_main_call1_v1_apply, val_main_call1_v0_apply,
    val_main_cst_11_apply, ei_v43, v36_eq]
  exact Cert.LibMask.inv_eq _

theorem el_v35 (b : Fin 8) (v : Fin 4096) (d : Fin 256) (k : Fin 4096) : lidx_main_v35 (ix3 b v d) k = ix3 b v k :=
  funext fun a => Fin.ext (by match a with | ⟨0, _⟩ => rfl | ⟨1, _⟩ => rfl | ⟨2, _⟩ => rfl)

theorem er_v35 (b : Fin 8) (v : Fin 4096) (d : Fin 256) (k : Fin 4096) : ridx_main_v35 (ix3 b v d) k = ix3 b k d :=
  funext fun a => Fin.ext (by match a with | ⟨0, _⟩ => rfl | ⟨1, _⟩ => rfl | ⟨2, _⟩ => rfl)

theorem v35_eq (b : Fin 8) (v : Fin 4096) (d : Fin 256) :
    val_main_v35 (F := Ideal) x0 x1 x2 x3 (ix3 b v d)
      = ∑ e : Fin 4096, hg (co3 x1) (co3 x0) b v e * E (co3 x1) (co3 x0) (co2 x2) (co1 x3) b e d := by
  rw [val_main_v35_apply]
  simp only [el_v35, er_v35, hg_eq, E_apply]

theorem enh_apply (b : Fin 8) (v : Fin 4096) (d : Fin 256) :
    val_main_v45 (F := Ideal) x0 x1 x2 x3 (ix3 b v d) = enh (co3 x1) (co3 x0) (E (co3 x1) (co3 x0) (co2 x2) (co1 x3)) b v d := by
  rw [val_main_v45_apply, val_main_v44_apply, v43_eq, v35_eq, Ideal.addf_def, Ideal.mulf_def, mul_comm]
  rfl

theorem enh_eq : val_main_v45 (F := Ideal) x0 x1 x2 x3 = ar3 (enh (co3 x1) (co3 x0) (E (co3 x1) (co3 x0) (co2 x2) (co1 x3))) :=
  funext fun i => (congrArg (val_main_v45 (F := Ideal) x0 x1 x2 x3) (eq_ix3 i)).trans (enh_apply x0 x1 x2 x3 (i 0) (i 1) (i 2))

end Cert.RefStages

end
-- ==== Proof.RefFfn.lean ====
import proofs.«176735_j32615981646424_1_alg».proof.Proof.RefReadP
import proofs.«176735_j32615981646424_1_alg».proof.Proof.Spec
import proofs.«176735_j32615981646424_1_alg».proof.Proof.LibMask
import proofs.«176735_j32615981646424_1_alg».proof.Proof.RefStages

noncomputable section

open scoped BigOperators

namespace Cert.RefFfn

open Cert.ReferenceIdeal Cert.ReferenceIdeal.Gen Cert.ReferenceIdeal.ReadP Idealize.ShloMosaic Idealize.ShloMosaic.ValueIdx Cert.Spec

theorem lidx46_ix (b : Fin 8) (n : Fin 4096) (f : Fin 1024) (k : Fin 256) :
    lidx_main_v46 (ix3 b n f) k = ix3 b n k :=
  funext fun a => Fin.ext (by match a with | ⟨0, _⟩ => rfl | ⟨1, _⟩ => rfl | ⟨2, _⟩ => rfl)

theorem ridx46_ix (b : Fin 8) (n : Fin 4096) (f : Fin 1024) (k : Fin 256) :
    ridx_main_v46 (ix3 b n f) k = ix2 f k :=
  funext fun a => Fin.ext (by match a with | ⟨0, _⟩ => rfl | ⟨1, _⟩ => rfl)

theorem idx47_ix (b : Fin 8) (n : Fin 4096) (f : Fin 1024) :
    idx_main_v47 (idx_main_v48 (ix3 b n f)) = ix1 f :=
  funext fun a => Fin.ext (by match a with | ⟨0, _⟩ => rfl)

theorem lidx51_ix (b : Fin 8) (n : Fin 4096) (d : Fin 256) (k : Fin 1024) :
    lidx_main_v51 (ix3 b n d) k = ix3 b n k :=
  funext fun a => Fin.ext (by match a with | ⟨0, _⟩ => rfl | ⟨1, _⟩ => rfl | ⟨2, _⟩ => rfl)

theorem ridx51_ix (b : Fin 8) (n : Fin 4096) (d : Fin 256) (k : Fin 1024) :
    ridx_main_v51 (ix3 b n d) k = ix2 d k :=
  funext fun a => Fin.ext (by match a with | ⟨0, _⟩ => rfl | ⟨1, _⟩ => rfl)

theorem idx52_ix (b : Fin 8) (n : Fin 4096) (d : Fin 256) :
    idx_main_v52 (idx_main_v53 (ix3 b n d)) = ix1 d :=
  funext fun a => Fin.ext (by match a with | ⟨0, _⟩ => rfl)

theorem idx56_ix (b : Fin 8) (n : Fin 4096) (k : Fin 256) :
    idx_main_v56 (idx_main_v57 (ix3 b n (0 : Fin 1))) k = ix3 b n k :=
  funext fun a => Fin.ext (by match a with | ⟨0, _⟩ => rfl | ⟨1, _⟩ => rfl | ⟨2, _⟩ => rfl)

theorem idx60_ix (b : Fin 8) (n : Fin 4096) (d : Fin 256) :
    idx_main_v60 (ix3 b n d) = ix3 b n (0 : Fin 1) :=
  funext fun a => Fin.ext (by match a with | ⟨0, _⟩ => rfl | ⟨1, _⟩ => rfl | ⟨2, _⟩ => rfl)

theorem idx63_ix (b : Fin 8) (n : Fin 4096) (k : Fin 256) :
    idx_main_v63 (idx_main_v64 (ix3 b n (0 : Fin 1))) k = ix3 b n k :=
  funext fun a => Fin.ext (by match a with | ⟨0, _⟩ => rfl | ⟨1, _⟩ => rfl | ⟨2, _⟩ => rfl)

theorem idx67_ix (b : Fin 8) (n : Fin 4096) (d : Fin 256) :
    idx_main_v67 (ix3 b n d) = ix3 b n (0 : Fin 1) :=
  funext fun a => Fin.ext (by match a with | ⟨0, _⟩ => rfl | ⟨1, _⟩ => rfl | ⟨2, _⟩ => rfl)

theorem idx72_ix (b : Fin 8) (n : Fin 4096) (d : Fin 256) :
    idx_main_v72 (ix3 b n d) = ix3 b n (0 : Fin 1) :=
  funext fun a => Fin.ext (by match a with | ⟨0, _⟩ => rfl | ⟨1, _⟩ => rfl | ⟨2, _⟩ => rfl)

theorem idx74_ix (b : Fin 8) (n : Fin 4096) (d : Fin 256) :
    idx_main_v74 (idx_main_v75 (ix3 b n d)) = ix1 d :=
  funext fun a => Fin.ext (by match a with | ⟨0, _⟩ => rfl)

theorem idx77_ix (b : Fin 8) (n : Fin 4096) (d : Fin 256) :
    idx_main_v77 (idx_main_v78 (ix3 b n d)) = ix1 d :=
  funext fun a => Fin.ext (by match a with | ⟨0, _⟩ => rfl)

variable (x0 x1 : (⟨S8x4096x256, .f32⟩ : BufTy).Contents (Elt Ideal)) (x2 : (⟨S256x256, .f32⟩ : BufTy).Contents (Elt Ideal)) (x3 : (⟨S256, .f32⟩ : BufTy).Contents (Elt Ideal))
  (x4 : (⟨S1024x256, .f32⟩ : BufTy).Contents (Elt Ideal)) (x5 : (⟨S1024, .f32⟩ : BufTy).Contents (Elt Ideal)) (x6 : (⟨S256x1024, .f32⟩ : BufTy).Contents (Elt Ideal))
  (x7 x8 x9 : (⟨S256, .f32⟩ : BufTy).Contents (Elt Ideal))

local notation "QQ" => q (co3 (val_main_v45 (F := Ideal) x0 x1 x2 x3)) (co2 x4) (co1 x5) (co2 x6) (co1 x7)

theorem v50_at (b : Fin 8) (n : Fin 4096) (f : Fin 1024) :
    val_main_v50 (F := Ideal) x0 x1 x2 x3 x4 x5 (ix3 b n f)
      = hid (co3 (val_main_v45 (F := Ideal) x0 x1 x2 x3)) (co2 x4) (co1 x5) b n f := by
  rw [val_main_v50_apply, val_main_v49_apply, val_main_v46_apply, val_main_v48_apply, val_main_v47_apply,
    val_main_call2_v0_apply, val_main_call2_cst_apply]
  simp only [lidx46_ix, ridx46_ix, idx47_ix]
  rfl

theorem v55_at (b : Fin 8) (n : Fin 4096) (d : Fin 256) :
    val_main_v55 (F := Ideal) x0 x1 x2 x3 x4 x5 x6 x7 (ix3 b n d) = QQ b n d := by
  rw [val_main_v55_apply, val_main_v54_apply, val_main_v51_apply, val_main_v53_apply, val_main_v52_apply]
  simp only [lidx51_ix, ridx51_ix, idx52_ix, v50_at]
  rfl

theorem v59_at (b : Fin 8) (n : Fin 4096) :
    val_main_v59 (F := Ideal) x0 x1 x2 x3 x4 x5 x6 x7 (ix3 b n (0 : Fin 1)) = mu QQ b n := by
  rw [val_main_v59_apply, val_main_v57_apply, val_main_v56_apply, val_main_v58_apply, val_main_cst_13_apply,
    val_main_cst_12_apply]
  simp only [idx56_ix, v55_at, Ideal.ofBits_def, Ideal.ofBits_zero_f32, zero_add]
  rfl

theorem v61_at (b : Fin 8) (n : Fin 4096) (d : Fin 256) :
    val_main_v61 (F := Ideal) x0 x1 x2 x3 x4 x5 x6 x7 (ix3 b n d) = QQ b n d - mu QQ b n := by
  rw [val_main_v61_apply, val_main_v60_apply, idx60_ix, v59_at, v55_at]
  rfl

theorem v66_at (b : Fin 8) (n : Fin 4096) :
    val_main_v66 (F := Ideal) x0 x1 x2 x3 x4 x5 x6 x7 (ix3 b n (0 : Fin 1)) = var QQ b n := by
  rw [val_main_v66_apply, val_main_v64_apply, val_main_v63_apply, val_main_v65_apply, val_main_cst_15_apply,
    val_main_cst_14_apply]
  simp only [val_main_v62_apply, idx63_ix, v61_at, Ideal.ofBits_def, Ideal.ofBits_zero_f32, zero_add]
  rfl

theorem ffn_eq : val_main_v79 (F := Ideal) x0 x1 x2 x3 x4 x5 x6 x7 x8 x9
    = ar3 (ffn (co3 (val_main_v45 (F := Ideal) x0 x1 x2 x3)) (co2 x4) (co1 x5) (co2 x6) (co1 x7) (co1 x8) (co1 x9)) := by
  funext i
  obtain ⟨b, n, d, rfl⟩ : ∃ b n d, i = ix3 b n d := ⟨i 0, i 1, i 2, eq_ix3 i⟩
  rw [val_main_v79_apply, val_main_v76_apply, val_main_v73_apply, val_main_v68_apply, val_main_v67_apply,
    val_main_v72_apply, val_main_v71_apply, val_main_v70_apply, val_main_v69_apply, val_main_cst_16_apply,
    val_main_v75_apply, val_main_v74_apply, val_main_v78_apply, val_main_v77_apply,
    idx67_ix, idx72_ix, idx74_ix, idx77_ix, v55_at, v59_at, v66_at]
  rfl

theorem ref_eq : val_main_v79 (F := Ideal) x0 x1 x2 x3 x4 x5 x6 x7 x8 x9
    = ar3 (result (co3 x0) (co3 x1) (co2 x2) (co1 x3) (co2 x4) (co1 x5) (co2 x6) (co1 x7) (co1 x8) (co1 x9)) := by
  rw [ffn_eq, Cert.RefStages.enh_eq, co3_ar3]; rfl

end Cert.RefFfn

end
-- ==== Proof.lean ====
import proofs.«176735_j32615981646424_1_alg».proof.Defs
import proofs.«176735_j32615981646424_1_alg».proof.Proof.Gen.Kernel
import proofs.«176735_j32615981646424_1_alg».proof.Proof.Gen.KernelIdeal
import proofs.«176735_j32615981646424_1_alg».proof.Proof.Gen.ReferenceIdeal
import proofs.«176735_j32615981646424_1_alg».proof.Proof.Gen.Pre_finite_inputs
import proofs.«176735_j32615981646424_1_alg».proof.Proof.K.Segs
import proofs.«176735_j32615981646424_1_alg».proof.Proof.KI.Segs
import proofs.«176735_j32615981646424_1_alg».proof.Proof.KI.R0Value
import proofs.«176735_j32615981646424_1_alg».proof.Proof.KI.R1Value
import proofs.«176735_j32615981646424_1_alg».proof.Proof.KI.R2Value
import proofs.«176735_j32615981646424_1_alg».proof.Proof.RefRun
import proofs.«176735_j32615981646424_1_alg».proof.Proof.RefFfn

noncomputable section

namespace Cert.Proof

open Idealize.ShloMosaic Idealize.ShloMosaic.TcCoe Idealize.SL.Sem Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem preserves : Cert.preserves_Kernel_KernelIdeal :=
  ⟨IdealRules.truncf_extf.statement Cert.KernelIdeal.S512x512 .f32 .bf16, IdealRules.truncf_extf.statement Cert.KernelIdeal.S512x512 .f32 .bf16⟩

abbrev specAt (m : (ℓ : Loc Cert.KernelIdeal.nD Cert.KernelIdeal.τ Cert.KernelIdeal.sig) → Buf (Elt Ideal) ℓ) (c : Dev Cert.KernelIdeal.nD) :=
  ar3 (result (co3 (m ((c.tc : Thread Cert.KernelIdeal.nD Cert.KernelIdeal.τ).loc Cert.KernelIdeal.main_arg0) : Cert.KernelIdeal.S8x4096x256.Idx → EReal)) (co3 (m ((c.tc : Thread Cert.KernelIdeal.nD Cert.KernelIdeal.τ).loc Cert.KernelIdeal.main_arg1) : Cert.KernelIdeal.S8x4096x256.Idx → EReal)) (co2 (m ((c.tc : Thread Cert.KernelIdeal.nD Cert.KernelIdeal.τ).loc Cert.KernelIdeal.main_arg2) : Cert.KernelIdeal.S256x256.Idx → EReal)) (co1 (m ((c.tc : Thread Cert.KernelIdeal.nD Cert.KernelIdeal.τ).loc Cert.KernelIdeal.main_arg3) : Cert.KernelIdeal.S256.Idx → EReal)) (co2 (m ((c.tc : Thread Cert.KernelIdeal.nD Cert.KernelIdeal.τ).loc Cert.KernelIdeal.main_arg4) : Cert.KernelIdeal.S1024x256.Idx → EReal)) (co1 (m ((c.tc : Thread Cert.KernelIdeal.nD Cert.KernelIdeal.τ).loc Cert.KernelIdeal.main_arg5) : Cert.KernelIdeal.S1024.Idx → EReal)) (co2 (m ((c.tc : Thread Cert.KernelIdeal.nD Cert.KernelIdeal.τ).loc Cert.KernelIdeal.main_arg6) : Cert.KernelIdeal.S256x1024.Idx → EReal)) (co1 (m ((c.tc : Thread Cert.KernelIdeal.nD Cert.KernelIdeal.τ).loc Cert.KernelIdeal.main_arg7) : Cert.KernelIdeal.S256.Idx → EReal)) (co1 (m ((c.tc : Thread Cert.KernelIdeal.nD Cert.KernelIdeal.τ).loc Cert.KernelIdeal.main_arg8) : Cert.KernelIdeal.S256.Idx → EReal)) (co1 (m ((c.tc : Thread Cert.KernelIdeal.nD Cert.KernelIdeal.τ).loc Cert.KernelIdeal.main_arg9) : Cert.KernelIdeal.S256.Idx → EReal)))

open Cert.KernelIdeal.Hand Cert.KernelIdeal.HandValue in

theorem kernel_result (m : (ℓ : Loc Cert.KernelIdeal.nD Cert.KernelIdeal.τ Cert.KernelIdeal.sig) → Buf (Elt Ideal) ℓ) (c : Dev Cert.KernelIdeal.nD) :
    ((dat2 (F := Ideal) (Uc m) c).arrAt 7 Cert.KernelIdeal.cfg2.N : Cert.KernelIdeal.S8x4096x256.Idx → EReal) = specAt m c := by
  rw [final2 (Uc m) c, Uc_v1 m c, final1 (Ub m) c, Ub_v0 m c, final0 (Ua m) c]
  simp only [Uc_of_ne m c _ (show Cert.KernelIdeal.main_arg4 ≠ Cert.KernelIdeal.main_v1 by decide), Uc_of_ne m c _ (show Cert.KernelIdeal.main_arg5 ≠ Cert.KernelIdeal.main_v1 by decide),
    Uc_of_ne m c _ (show Cert.KernelIdeal.main_arg6 ≠ Cert.KernelIdeal.main_v1 by decide), Uc_of_ne m c _ (show Cert.KernelIdeal.main_arg7 ≠ Cert.KernelIdeal.main_v1 by decide),
    Uc_of_ne m c _ (show Cert.KernelIdeal.main_arg8 ≠ Cert.KernelIdeal.main_v1 by decide), Uc_of_ne m c _ (show Cert.KernelIdeal.main_arg9 ≠ Cert.KernelIdeal.main_v1 by decide),
    Ub_of_ne m c _ (show Cert.KernelIdeal.main_arg0 ≠ Cert.KernelIdeal.main_v0 by decide), Ub_of_ne m c _ (show Cert.KernelIdeal.main_arg1 ≠ Cert.KernelIdeal.main_v0 by decide),
    Ub_of_ne m c _ (show Cert.KernelIdeal.main_arg4 ≠ Cert.KernelIdeal.main_v0 by decide), Ub_of_ne m c _ (show Cert.KernelIdeal.main_arg5 ≠ Cert.KernelIdeal.main_v0 by decide),
    Ub_of_ne m c _ (show Cert.KernelIdeal.main_arg6 ≠ Cert.KernelIdeal.main_v0 by decide), Ub_of_ne m c _ (show Cert.KernelIdeal.main_arg7 ≠ Cert.KernelIdeal.main_v0 by decide),
    Ub_of_ne m c _ (show Cert.KernelIdeal.main_arg8 ≠ Cert.KernelIdeal.main_v0 by decide), Ub_of_ne m c _ (show Cert.KernelIdeal.main_arg9 ≠ Cert.KernelIdeal.main_v0 by decide),
    co3_ar3]
  rfl

theorem algebraic : Cert.algebraic_KernelIdeal_ReferenceIdeal := by
  intro m ρ m' ρ' _ hagree
  refine ⟨fun c => specAt m c, ?_, ?_⟩
  · exact (θ_run Cert.KernelIdeal.defs _ _).mono (fun _ h c => ⟨(h c).1.trans (kernel_result m c), (h c).2⟩)
      (Cert.KernelIdeal.Hand.run_value (F := Ideal) m ρ)
  · refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v79_eq, Cert.RefFfn.ref_eq]
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame_ri, preserves, algebraic⟩

end Cert.Proof

end
